-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x256 : Shape := ⟨2, ![512, 256]⟩
abbrev S512x1 : Shape := ⟨2, ![512, 1]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512x1 : S_.BroadcastsInDim S512x1 (![] : Fin 0 → Fin S512x1.rank)
  reducesTo_S512x1_S_d0_1 : S512x1.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8192x512 .f32) (main_arg1 : IVec S2x262144 32) (main_arg2 : FVec F S512x256 .f32) (main_arg3 : FVec F S512x1 .f32) (main_arg4 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x1 .f32 := Host.absf main_arg3
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8192x512 : Shape := ⟨2, ![8192, 512]⟩
abbrev S2x262144 : Shape := ⟨2, ![2, 262144]⟩
abbrev S512x256 : Shape := ⟨2, ![512, 256]⟩
abbrev S512x1 : Shape := ⟨2, ![512, 1]⟩
abbrev S256 : Shape := ⟨1, ![256]⟩
abbrev S8192x256 : Shape := ⟨2, ![8192, 256]⟩
abbrev S1024x512 : Shape := ⟨2, ![1024, 512]⟩
abbrev S1024x256 : Shape := ⟨2, ![1024, 256]⟩
abbrev S256x1 : Shape := ⟨2, ![256, 1]⟩
abbrev S8192x1 : Shape := ⟨2, ![8192, 1]⟩
abbrev S8192 : Shape := ⟨1, ![8192]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S8192x8192 : Shape := ⟨2, ![8192, 8192]⟩
abbrev S262144x2 : Shape := ⟨2, ![262144, 2]⟩
abbrev S1x256 : Shape := ⟨2, ![1, 256]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 66
  | .vmem => 16
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x256, .f32⟩
  | .hbm, ⟨3, _⟩ => ⟨S512x1, .f32⟩
  | .hbm, ⟨4, _⟩ => ⟨S256, .f32⟩
  | .hbm, ⟨5, _⟩ => ⟨S8192x256, .f32⟩
  | .hbm, ⟨6, _⟩ => ⟨S8192x256, .bf16⟩
  | .hbm, ⟨7, _⟩ => ⟨S256x1, .f32⟩
  | .hbm, ⟨8, _⟩ => ⟨S256x1, .f32⟩
  | .hbm, ⟨9, _⟩ => ⟨S8192x1, .f32⟩
  | .hbm, ⟨10, _⟩ => ⟨S8192, .f32⟩
  | .hbm, ⟨11, _⟩ => ⟨S8192x1, .f32⟩
  | .hbm, ⟨12, _⟩ => ⟨S8192, .f32⟩
  | .hbm, ⟨13, _⟩ => ⟨S1x262144, .i32⟩
  | .hbm, ⟨14, _⟩ => ⟨S262144, .i32⟩
  | .hbm, ⟨15, _⟩ => ⟨S1x262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144, .f32⟩
  | .hbm, ⟨26, _⟩ => ⟨S_, .i32⟩
  | .hbm, ⟨27, _⟩ => ⟨S262144, .i32⟩
  | .hbm, ⟨28, _⟩ => ⟨S262144, .i1⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S262144, .i32⟩
  | .hbm, ⟨33, _⟩ => ⟨S262144x1, .i32⟩
  | .hbm, ⟨34, _⟩ => ⟨S262144, .f32⟩
  | .hbm, ⟨35, _⟩ => ⟨S262144, .f32⟩
  | .hbm, ⟨36, _⟩ => ⟨S_, .f32⟩
  | .hbm, ⟨37, _⟩ => ⟨S_, .f32⟩
  | .hbm, ⟨38, _⟩ => ⟨S262144, .f32⟩
  | .hbm, ⟨39, _⟩ => ⟨S262144, .i1⟩
  | .hbm, ⟨40, _⟩ => ⟨S_, .f32⟩
  | .hbm, ⟨41, _⟩ => ⟨S262144, .f32⟩
  | .hbm, ⟨42, _⟩ => ⟨S262144, .f32⟩
  | .hbm, ⟨43, _⟩ => ⟨S262144, .f32⟩
  | .hbm, ⟨44, _⟩ => ⟨S_, .f32⟩
  | .hbm, ⟨45, _⟩ => ⟨S8192x8192, .f32⟩
  | .hbm, ⟨46, _⟩ => ⟨S_, .i32⟩
  | .hbm, ⟨47, _⟩ => ⟨S262144, .i32⟩
  | .hbm, ⟨48, _⟩ => ⟨S262144, .i1⟩
  | .hbm, ⟨49, _⟩ => ⟨S_, .i32⟩
  | .hbm, ⟨50, _⟩ => ⟨S262144, .i32⟩
  | .hbm, ⟨51, _⟩ => ⟨S262144, .i32⟩
  | .hbm, ⟨52, _⟩ => ⟨S262144, .i32⟩
  | .hbm, ⟨53, _⟩ => ⟨S_, .i32⟩
  | .hbm, ⟨54, _⟩ => ⟨S262144, .i32⟩
  | .hbm, ⟨55, _⟩ => ⟨S262144, .i1⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S262144, .i32⟩
  | .hbm, ⟨60, _⟩ => ⟨S262144x1, .i32⟩
  | .hbm, ⟨61, _⟩ => ⟨S262144x1, .i32⟩
  | .hbm, ⟨62, _⟩ => ⟨S262144x2, .i32⟩
  | .hbm, ⟨63, _⟩ => ⟨S8192x8192, .f32⟩
  | .hbm, ⟨64, _⟩ => ⟨S1x256, .f32⟩
  | .hbm, ⟨65, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S1024x256, .bf16⟩
  | .local _ .vmem, ⟨6, _⟩ => ⟨S1024x256, .bf16⟩
  | .local _ .vmem, ⟨7, _⟩ => ⟨S1024x1024, .f32⟩
  | .local _ .vmem, ⟨8, _⟩ => ⟨S1024x1024, .f32⟩
  | .local _ .vmem, ⟨9, _⟩ => ⟨S8192x256, .bf16⟩
  | .local _ .vmem, ⟨10, _⟩ => ⟨S1x256, .f32⟩
  | .local _ .vmem, ⟨11, _⟩ => ⟨S1024x256, .f32⟩
  | .local _ .vmem, ⟨12, _⟩ => ⟨S1024x256, .f32⟩
  | .local _ .vmem, ⟨13, _⟩ => ⟨S1024x1, .f32⟩
  | .local _ .vmem, ⟨14, _⟩ => ⟨S1024x1, .f32⟩
  | .local _ .vmem, ⟨15, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_1 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v24 : BitVec 32 := Scalar.muli arg1 c1024_i32
  v24
def k1_off1 (i : grid1.Coords) : Fin 2 → Nat :=
  let arg1 : BitVec 32 := BitVec.ofNat 32 (i 1).val
  let c1024_i32 : BitVec 32 := 1024#32
  let v24 : BitVec 32 := Scalar.muli arg1 c1024_i32
  let v25 : BitVec 32 := v24
  let v26 : Index := Scalar.indexCast v25
  let c0_11 : Index := 0#32
  ![v26.toNat, 0]
def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_19 : BitVec 32 := 0#32
  let v42 : BitVec 1 := Scalar.cmpi .ne v41 c0_i32_19
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  slices_S512x1_S256x1_0_0 : S512x1.Slices ![0, 0] S256x1
  slices_S512x1_S256x1_256_0 : S512x1.Slices ![256, 0] S256x1
  shapeCasts_S8192x1_S8192 : S8192x1.ShapeCasts S8192
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S_S8192x8192 : S_.BroadcastsInDim S8192x8192 (![] : Fin 0 → Fin S8192x8192.rank)
  concatenates_S262144x1_S262144x1_S262144x2_d1 : Shape.Concatenates [S262144x1, S262144x1] S262144x2 1
  shapeCasts_S256_S1x256 : S256.ShapeCasts S1x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x512_S512x256_S1024x256_1_0_0_1_n_n_wf : DotDims.WF S1024x512 S512x256 S1024x256 [1] [0] [0] [1] [] []
  dot_S8192x256_S256x1_S8192x1_1_0_0_1_n_n_wf : DotDims.WF S8192x256 S256x1 S8192x1 [1] [0] [0] [1] [] []
  gather_S8192_S262144x1_S262144_n_0_n_n_0_1_1_wf : GatherDims.WF S8192 S262144x1 S262144 [] [0] [] [0] [] 1 ![1]
  scatter_S8192x8192_S262144x2_S262144_n_01_01_1_wf : ScatterDims.WF S8192x8192 S262144x2 S262144 [] [0, 1] [0, 1] 1
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .bf16 = 32 ∨ (Rect.block (s := S8192x256) S1024x256.size (cc0_transform_3 i) (hinb0_3 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x256.size a
  hwx1_3 : ∀ i : grid1.Coords, EltTy.bits .f32 = 32 ∨ (Rect.block (s := S8192x256) S1024x256.size (cc1_transform_3 i) (hinb1_3 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def gather_S8192_S262144x1_S262144_n_0_n_n_0_1_1 : GatherDims S8192 S262144x1 S262144 where
  offsetDims := []
  collapsedSliceDims := [0]
  operandBatchingDims := []
  startIndicesBatchingDims := []
  startIndexMap := [0]
  indexVectorDim := 1
  sliceSizes := ![1]
  wf := gather_S8192_S262144x1_S262144_n_0_n_n_0_1_1_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S2x262144 : Shape := ⟨2, ![2, 262144]⟩
abbrev S512x256 : Shape := ⟨2, ![512, 256]⟩
abbrev S512x1 : Shape := ⟨2, ![512, 1]⟩
abbrev S256 : Shape := ⟨1, ![256]⟩
abbrev S8192x256 : Shape := ⟨2, ![8192, 256]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S262144x256 : Shape := ⟨2, ![262144, 256]⟩
abbrev S262144x512 : Shape := ⟨2, ![262144, 512]⟩
abbrev S8192x8192 : Shape := ⟨2, ![8192, 8192]⟩
abbrev S262144x2 : Shape := ⟨2, ![262144, 2]⟩
abbrev S8192 : Shape := ⟨1, ![8192]⟩
abbrev S8192x1 : Shape := ⟨2, ![8192, 1]⟩
abbrev S1x256 : Shape := ⟨2, ![1, 256]⟩

abbrev nBuf : Space → Nat
  | .hbm => 77
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x256, .f32⟩
  | .hbm, ⟨3, _⟩ => ⟨S512x1, .f32⟩
  | .hbm, ⟨4, _⟩ => ⟨S256, .f32⟩
  | .hbm, ⟨5, _⟩ => ⟨S8192x256, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x256, .f32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x256, .f32⟩
  | .hbm, ⟨28, _⟩ => ⟨S262144x512, .f32⟩
  | .hbm, ⟨29, _⟩ => ⟨S262144x1, .f32⟩
  | .hbm, ⟨30, _⟩ => ⟨S_, .f32⟩
  | .hbm, ⟨31, _⟩ => ⟨S_, .f32⟩
  | .hbm, ⟨32, _⟩ => ⟨S262144x1, .f32⟩
  | .hbm, ⟨33, _⟩ => ⟨S262144x1, .i1⟩
  | .hbm, ⟨34, _⟩ => ⟨S_, .f32⟩
  | .hbm, ⟨35, _⟩ => ⟨S262144x1, .f32⟩
  | .hbm, ⟨36, _⟩ => ⟨S262144x1, .f32⟩
  | .hbm, ⟨37, _⟩ => ⟨S262144x1, .f32⟩
  | .hbm, ⟨38, _⟩ => ⟨S262144, .f32⟩
  | .hbm, ⟨39, _⟩ => ⟨S_, .f32⟩
  | .hbm, ⟨40, _⟩ => ⟨S8192x8192, .f32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144x1, .i32⟩
  | .hbm, ⟨57, _⟩ => ⟨S262144x2, .i32⟩
  | .hbm, ⟨58, _⟩ => ⟨S8192x8192, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S8192x1, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x8192, .f32⟩
  | .hbm, ⟨72, _⟩ => ⟨S8192x8192, .f32⟩
  | .hbm, ⟨73, _⟩ => ⟨S8192x256, .f32⟩
  | .hbm, ⟨74, _⟩ => ⟨S1x256, .f32⟩
  | .hbm, ⟨75, _⟩ => ⟨S8192x256, .f32⟩
  | .hbm, ⟨76, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x256_S262144x256_S262144x512_d1 : Shape.Concatenates [S262144x256, S262144x256] S262144x512 1
  bcast_S_S262144x1 : S_.BroadcastsInDim S262144x1 (![] : Fin 0 → Fin S262144x1.rank)
  shapeCasts_S262144x1_S262144 : S262144x1.ShapeCasts S262144
  bcast_S_S8192x8192 : S_.BroadcastsInDim S8192x8192 (![] : Fin 0 → Fin S8192x8192.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x512_S512x256_S8192x256_1_0_0_1_n_n_wf : DotDims.WF S8192x512 S512x256 S8192x256 [1] [0] [0] [1] [] []
  gather_S8192x256_S262144x1_S262144x256_1_0_n_n_0_1_1256_wf : GatherDims.WF S8192x256 S262144x1 S262144x256 [1] [0] [] [0] [] 1 ![1, 256]
  dot_S262144x512_S512x1_S262144x1_1_0_0_1_n_n_wf : DotDims.WF S262144x512 S512x1 S262144x1 [1] [0] [0] [1] [] []
  scatter_S8192x8192_S262144x2_S262144_n_01_01_1_wf : ScatterDims.WF S8192x8192 S262144x2 S262144 [] [0, 1] [0, 1] 1
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf
def dot_S262144x512_S512x1_S262144x1_1_0_0_1_n_n : DotDims S262144x512 S512x1 S262144x1 where
  lhsContracting := [1]
  rhsContracting := [0]
  lhsNonContracting := [0]
  rhsNonContracting := [1]
  lhsBatch := []
  rhsBatch := []
  wf := dot_S262144x512_S512x1_S262144x1_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.KB_R0Body.lean ====
import proofs.«410106_j61143154426041_3_alg».proof.Proof.Gen.Kernel.Launch
import proofs.«410106_j61143154426041_3_alg».proof.Proof.Gen.Kernel.Skeleton
import proofs.«410106_j61143154426041_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x512 := Rect.unit (s := S1024x512) ![0, 0] S1024x512.size inb_S1024x512_S1024x512_0_0
abbrev r0_1 : Rect S512x256 := Rect.unit (s := S512x256) ![0, 0] S512x256.size inb_S512x256_S512x256_0_0
abbrev r0_2 : Rect S1024x256 := Rect.unit (s := S1024x256) ![0, 0] S1024x256.size inb_S1024x256_S1024x256_0_0

def out0_2 (x0 : Vec F S1024x512 .f32) (x1 : Vec F S512x256 .f32) : Vec F S1024x256 .f32 :=
  View.canon [⟨r0_2, k0_pay1 (View.ld x0 r0_0) (View.ld x1 r0_1)⟩]

def out0_3 (x0 : Vec F S1024x512 .f32) (x1 : Vec F S512x256 .f32) : Vec F S1024x256 .bf16 :=
  View.canon [⟨r0_2, k0_pay2 (View.ld x0 r0_0) (View.ld x1 r0_1)⟩]

-- one piece over the whole shape covers it
theorem cover0 {e : EltTy} (p0 : Vec F S1024x256 e) (y : S1024x256.Idx) :
    ∃ pc ∈ ([⟨r0_2, p0⟩] : List (View.Piece (Elt F) S1024x256 e)), y ∈ pc.1.set :=
  View.cover_of_tiled [⟨r0_2, p0⟩] S1024x256.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show iprop(_ ∗ _ ∗ (∃ d, owns (c : Thread nD τ) (st0_0 t) _ ((dat0 V c).before 0 t d))
      ∗ (∃ d, owns (c : Thread nD τ) (st0_1 t) _ ((dat0 V c).before 1 t d)) ∗ _ ∗ _)
    ⊢ wp _ _ _ (bodyAt0 t) fun _ =>
      iprop((dat0 V c).Φ t.castSucc ∗ (dat0 V c).owesAt () t.castSucc
        ∗ owns (c : Thread nD τ) (st0_0 t) _ (iblk0 V c 0 t) ∗ owns (c : Thread nD τ) (st0_1 t) _ (iblk0 V c 1 t)
        ∗ owns (c : Thread nD τ) (st0_2 t) _ ((dat0 V c).after 2 t) ∗ owns (c : Thread nD τ) (st0_3 t) _ ((dat0 V c).after 3 t))
  simp only [before0_0, before0_1]
  rewrite [after0_2, after0_3]
  generalize iblk0 V c 0 t = x0; generalize iblk0 V c 1 t = x1
  unfold bodyAt0
  simp only [cc0__h_kernel_eq_skeleton]; unfold cc0__h_kernel_skel owns
  iintro ⟨HΦ, Ho, ⟨%d0, %f0, %hf0, H0⟩, ⟨%d1, %f1, %hf1, H1⟩, ⟨%d2, %f2, -, H2⟩, ⟨%d3, %f3, -, H3⟩⟩
  subst hf0; subst hf1
  sl_exec
  sl_step
  iframe HΦ Ho
  isplitl [H0]
  · iexists f0; isplitr; · ipureintro; rfl
    iexact H0
  isplitl [H1]
  · iexists f1; isplitr; · ipureintro; rfl
    iexact H1
  isplitl [H2] <;>
    (iexists _; isplitr; swap; iassumption; ipureintro; exact View.read_writes_eq_canon _ _ _ (cover0 _))

end Cert.Kernel.Gen0

end
-- ==== Proof.KB_R1Runs.lean ====
import proofs.«410106_j61143154426041_3_alg».proof.Proof.Gen.Kernel.Launch
import proofs.«410106_j61143154426041_3_alg».proof.Proof.Gen.Kernel.Skeleton
import proofs.«410106_j61143154426041_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

/-- The reset is taken at the first column block of a row block, the output stored at the last: decided over the 64 points. -/
theorem hcond1 : ∀ t : Fin cfg1.N, (cond1_0 (grid1.coords t) ↔ t.val % 8 = 0) ∧ (cond1_1 (grid1.coords t) ↔ t.val % 8 = 7) :=
  (by decide +kernel : ∀ t : Fin grid1.N, _)

theorem live1 : ∀ t : Fin cfg1.N, cfg1.idle 0 (grid1.coords t) = false ∧ cfg1.idle 1 (grid1.coords t) = false ∧ cfg1.idle 2 (grid1.coords t) = false
    ∧ (t.val % 8 = 7 → cfg1.idle 3 (grid1.coords t) = false)
    ∧ (¬t.val % 8 = 7 → cfg1.idle 3 (grid1.coords t) = true ∧ (cfg1.win 3).flush t = false) :=
  (by decide +kernel : ∀ t : Fin grid1.N, _)

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2

def restStg1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem sep_assoc_eq (P Q R : sProp 𝕄) : iprop((P ∗ Q) ∗ R) = iprop(P ∗ Q ∗ R) :=
  BI.equiv_iff.mp ⟨sep_assoc, sep_assoc'⟩

theorem PhiA1_eq (c : Dev nD) :
    (Pipeline.ΦA spec1 c : sProp 𝕄)
      = iprop(iprop(restStg1 (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; unfold restStg1
  simp only [scM1_0, scM1_1, scM1_2, owns_whole, sep_assoc_eq]; try rfl

end Cert.Kernel.Gen1

end
-- ==== Proof.KB_R1Body.lean ====
import proofs.«410106_j61143154426041_3_alg».proof.Proof.KB_R1Runs
import Idealize.ShloMosaic.Lib.Pipeline.Value

set_option maxRecDepth 16384

noncomputable section

namespace Cert.Kernel.Gen1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- After a list of stores whose last one fills the whole shape, reading gives that store's payload. -/
theorem read_store {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w :=
  (View.read_writes_eq_canon v f _ fun y => ⟨_, List.mem_cons_self, View.mem_set_unit_zero h inb y⟩).trans
    (View.canon_cons_unit_zero h inb w L)

/-- The carried state of the streamed softmax: running maximum, running sum, accumulator. -/
abbrev Sc (F : FTy → Type) [FloatOps F] := Vec F S1024x1 .f32 × Vec F S1024x1 .f32 × Vec F S1024x256 .f32

def mInit : Vec F S1024x1 .f32 := k1_pay4
def lInit : Vec F S1024x1 .f32 := k1_pay5
def aInit : Vec F S1024x256 .f32 := k1_pay6
def mStep (x0 : Vec F S1024x1024 .f32) (m0 : Vec F S1024x1 .f32) : Vec F S1024x1 .f32 := k1_pay2 (k1_pay8 x0 m0)
def lStep (x0 : Vec F S1024x1024 .f32) (m0 : Vec F S1024x1 .f32) (l0 : Vec F S1024x1 .f32) : Vec F S1024x1 .f32 := k1_pay11 x0 m0 m0 l0
def aStep (x0 : Vec F S1024x1024 .f32) (hb : Vec F S1024x256 .bf16) (m0 : Vec F S1024x1 .f32) (a0 : Vec F S1024x256 .f32) : Vec F S1024x256 .f32 := k1_pay1 (k1_pay12 x0 m0 m0 hb a0)
def oStep (acc : Vec F S1024x256 .f32) (l : Vec F S1024x1 .f32) (bias : Vec F S1x256 .f32) : Vec F S1024x256 .f32 := k1_pay3 acc l bias
def hblkOf (i : grid1.Coords) (x1 : Vec F S8192x256 .bf16) : Vec F S1024x256 .bf16 :=
  View.ld x1 (Rect.unit (s := S8192x256) (k1_off1 i) S1024x256.size (k1_off1_inb i))

def init : Sc F := (mInit, lInit, aInit)
def step (i : grid1.Coords) (x0 : Vec F S1024x1024 .f32) (x1 : Vec F S8192x256 .bf16) (s : Sc F) : Sc F :=
  (mStep x0 s.1, lStep x0 s.1 s.2.1, aStep x0 (hblkOf i x1) s.1 s.2.2)
/-- One point of the grid: the state is reset at the first column block, then stepped. -/
def next (i : grid1.Coords) (x0 : Vec F S1024x1024 .f32) (x1 : Vec F S8192x256 .bf16) (s : Sc F) : Sc F :=
  step i x0 x1 (if cond1_0 i then init else s)
/-- The output block, written at the last column block only. -/
def outOf (i : grid1.Coords) (x2 : Vec F S1x256 .f32) (s : Sc F) (xi3 : Vec F S1024x256 .f32) : Vec F S1024x256 .f32 :=
  if cond1_1 i then oStep s.2.2 s.2.1 x2 else xi3

variable (c : Dev nD) (i : grid1.Coords)
  (a2 : Memref sig .tc .vmem S1024x1024 .f32) (h2 : a2.IsWhole) (a3 : Memref sig .tc .vmem S8192x256 .bf16) (h3 : a3.IsWhole)
  (a4 : Memref sig .tc .vmem S1x256 .f32) (h4 : a4.IsWhole) (a5 : Memref sig .tc .vmem S1024x256 .f32) (h5 : a5.IsWhole)
  (a6 : Memref sig .tc .vmem S1024x1 .f32) (h6 : a6.IsWhole) (a7 : Memref sig .tc .vmem S1024x1 .f32) (h7 : a7.IsWhole)
  (a8 : Memref sig .tc .vmem S1024x256 .f32) (h8 : a8.IsWhole)
  (x0 : Vec F S1024x1024 .f32) (x1 : Vec F S8192x256 .bf16) (x2 : Vec F S1x256 .f32) (xi3 : Vec F S1024x256 .f32) (s : Sc F)

def ins : sProp 𝕄 := iprop(owns (c : Thread nD τ) a2 fullShare x0 ∗ owns (c : Thread nD τ) a3 fullShare x1 ∗ owns (c : Thread nD τ) a4 fullShare x2)
def scr : sProp 𝕄 := iprop(owns (c : Thread nD τ) a6 fullShare s.1 ∗ owns (c : Thread nD τ) a7 fullShare s.2.1 ∗ owns (c : Thread nD τ) a8 fullShare s.2.2)

set_option maxHeartbeats 4000000 in
/-- One run of the body: the inputs stay, the carried state moves to `next`, the output block to `outOf`. -/
theorem run1 (hx : ¬(cond1_0 i ∧ cond1_1 i)) (E : Set ℕ) (K : PUnit → sProp 𝕄) :
    iprop(ins c a2 a3 a4 x0 x1 x2 ∗ owns (c : Thread nD τ) a5 fullShare xi3 ∗ scr c a6 a7 a8 s
        ∗ (iprop(ins c a2 a3 a4 x0 x1 x2 ∗ owns (c : Thread nD τ) a5 fullShare (outOf i x2 (next i x0 x1 s) xi3) ∗ scr c a6 a7 a8 (next i x0 x1 s)) -∗ K ⟨⟩))
      ⊢ wp frame (wpE (defs₀ (F := F)) Variants.none c none) E (cc1__gat_kernel i a2 h2 a3 h3 a4 h4 a5 h5 a6 h6 a7 h7 a8 h8) K := by
  obtain ⟨m0, l0, ac0⟩ := s
  unfold next outOf
  by_cases hc0 : cond1_0 i <;> by_cases hc1 : cond1_1 i
  · exact absurd ⟨hc0, hc1⟩ hx
  all_goals
    first | rw [if_pos hc0] | rw [if_neg hc0]
    first | rw [if_pos hc1] | rw [if_neg hc1]
    simp only [cc1__gat_kernel_eq_skeleton]; unfold cc1__gat_kernel_skel
    simp only [k1_part1_eq_skeleton]
    unfold ins scr owns; dsimp only
    iintro ⟨⟨⟨%f0, %hf0, H0⟩, ⟨%f1, %hf1, H1⟩, ⟨%f2, %hf2, H2⟩⟩, ⟨%f3, %hf3, H3⟩, ⟨⟨%fs0, %hfs0, HS0⟩, ⟨%fs1, %hfs1, HS1⟩, ⟨%fs2, %hfs2, HS2⟩⟩, Hk⟩
    obtain rfl := h2.eq_unread hf0; obtain rfl := h3.eq_unread hf1; obtain rfl := h4.eq_unread hf2; obtain rfl := h5.eq_unread hf3
    obtain rfl := h6.eq_unread hfs0; obtain rfl := h7.eq_unread hfs1; obtain rfl := h8.eq_unread hfs2
    sl_exec (disch := first | exact hc0 | exact hc1)
    sl_step
    sl_unfold_words
    simp only [View.readAt_eq_ld, h2.read_unread, h3.read_unread, h4.read_unread, h6.read_unread, h7.read_unread, h8.read_unread, View.ld_unit_zero (S := S1024x1024) hz2, View.ld_unit_zero (S := S1024x1) hz2, View.ld_unit_zero (S := S1024x256) hz2, View.ld_unit_zero (S := S1x256) hz2, View.readCov_unit_zero (S := S1024x1) _ hz2, View.readCov_unit_zero (S := S1024x256) _ hz2]
    iapply Hk
    isplitl [H0 H1 H2]
    · isplitl [H0]
      · iexists _; isplitr; · ipureintro; exact h2.read_unread _
        iexact H0
      isplitl [H1]
      · iexists _; isplitr; · ipureintro; exact h3.read_unread _
        iexact H1
      iexists _; isplitr; · ipureintro; exact h4.read_unread _
      iexact H2
    isplitl [H3]
    · iexists _; isplitr
      swap; · iexact H3
      ipureintro; first | exact h5.read_unread _ | (apply read_store; exact hz2)
    isplitl [HS0]
    · iexists _; isplitr
      swap; · iexact HS0
      ipureintro; apply read_store; exact hz2
    isplitl [HS1]
    · iexists _; isplitr
      swap; · iexact HS1
      ipureintro; apply read_store; exact hz2
    iexists _; isplitr
    swap; · iexact HS2
    ipureintro; apply read_store; exact hz2

end Cert.Kernel.Gen1

end
-- ==== Proof.KB_R1Frame.lean ====
import proofs.«410106_j61143154426041_3_alg».proof.Proof.KB_R1Body

set_option maxRecDepth 16384

noncomputable section

namespace Cert.Kernel.Gen1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state after the point at position `n`: the points' steps folded along the grid's order. -/
def scAt (c : Dev nD) : (n : ℕ) → n < cfg1.N → Sc F
  | 0, hn => next (grid1.coords ⟨0, hn⟩) (iblk1 V c 0 ⟨0, hn⟩) (iblk1 V c 1 ⟨0, hn⟩) init
  | n + 1, hn => next (grid1.coords ⟨n + 1, hn⟩) (iblk1 V c 0 ⟨n + 1, hn⟩) (iblk1 V c 1 ⟨n + 1, hn⟩) (scAt c n (Nat.lt_of_succ_lt hn))

/-- A point steps whatever state agrees with the fold so far: the first point resets, so there any state does. -/
theorem next_eq (c : Dev nD) (t : Fin cfg1.N) (s : Sc F) (hs : ∀ _ : t.val ≠ 0, ∀ hn, s = scAt V c (t.val - 1) hn) :
    next (grid1.coords t) (iblk1 V c 0 t) (iblk1 V c 1 t) s = scAt V c t.val t.isLt := by
  obtain ⟨n, hn⟩ := t
  cases n with
  | zero => unfold scAt next; rw [if_pos ((hcond1 ⟨0, hn⟩).1.mpr rfl), if_pos ((hcond1 ⟨0, hn⟩).1.mpr rfl)]
  | succ n => rw [hs (Nat.succ_ne_zero n) (Nat.lt_of_succ_lt hn)]; rfl

/-- The fold, a point at a time: a first column block starts from the reset state, any other from the point before. -/
theorem scAt_eq (c : Dev nD) (t : Fin cfg1.N) :
    scAt V c t.val t.isLt = step (grid1.coords t) (iblk1 V c 0 t) (iblk1 V c 1 t)
      (if t.val % 8 = 0 then init else scAt V c (t.val - 1) (Nat.lt_of_le_of_lt (Nat.sub_le _ _) t.isLt)) := by
  rw [← next_eq V c t (scAt V c (t.val - 1) (Nat.lt_of_le_of_lt (Nat.sub_le _ _) t.isLt)) fun _ _ => rfl, next]
  by_cases h : t.val % 8 = 0
  · rw [if_pos h, if_pos ((hcond1 t).1.mpr h)]
  · rw [if_neg h, if_neg fun h' => h ((hcond1 t).1.mp h')]

/-- The invariant before position `n`: the carried state, which past the first point is the fold's. -/
def PhiS (c : Dev nD) (n : ℕ) : sProp 𝕄 :=
  iprop(∃ s : Sc F, ⌜∀ _ : n ≠ 0, ∀ hn, s = scAt V c (n - 1) hn⌝ ∗ (restStg1 (F := F) c ∗ scr c scM1_0 scM1_1 scM1_2 s) ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => oStep (scAt V c t.val t.isLt).2.2 (scAt V c t.val t.isLt).2.1 (iblk1 V c 2 t)
  Φ t := PhiS V c t.val
  q _ := fullShare
  owed _ := 0

theorem after1_3 (c : Dev nD) (t : Fin cfg1.N) :
    (dat1 V c).after 3 t = oStep (scAt V c t.val t.isLt).2.2 (scAt V c t.val t.isLt).2.1 (iblk1 V c 2 t) := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem leaves_live {c : Dev nD} (dat : Dat τ (Elt F) Unit ℕ (UR sig nD τ) ℕ cfg1 c) (w : Fin cfg1.W) (t : Fin cfg1.N)
    (h : cfg1.idle w (grid1.coords t) = false) :
    dat.leavesExact w t = owns (c : Thread nD τ) ((cfg1.win w).stage (cfg1.slots t w)) fullShare (dat.after w t) := by
  unfold Dat.leavesExact; rw [h]

theorem leaves3 (c : Dev nD) (t : Fin cfg1.N) (d) :
    owns (c : Thread nD τ) (ms1_3 t) fullShare (outOf (grid1.coords t) (iblk1 V c 2 t) (scAt V c t.val t.isLt) ((dat1 V c).before 3 t d))
      ⊢ (dat1 V c).leavesExact 3 t := by
  obtain ⟨-, -, -, l3, l3'⟩ := live1 t
  by_cases h7 : t.val % 8 = 7
  · rw [leaves_live _ 3 t (l3 h7), outOf, if_pos ((hcond1 t).2.mpr h7)]; exact .rfl
  · rw [Dat.leavesExact_idle _ 3 t (l3' h7).1 (l3' h7).2, outOf, if_neg fun h => h7 ((hcond1 t).2.mp h)]
    iintro H; iexists d; iexact H

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨l0, l1, l2, -, -⟩ := live1 t
  simp only [before1_0, before1_1, before1_2]
  rw [leaves_live _ 0 t l0, leaves_live _ 1 t l1, leaves_live _ 2 t l2]
  show iprop(PhiS V c t.val ∗ _) ⊢ wp _ _ _ _ (fun _ => iprop(PhiS V c (t.val + 1) ∗ (dat1 V c).owesAt () t.castSucc ∗ _))
  unfold PhiS
  iintro ⟨⟨%s, %hs, ⟨HR, HS⟩, Hg⟩, Ho, ⟨%d0, H0⟩, ⟨%d1, H1⟩, ⟨%d2, H2⟩, ⟨%d3, H3⟩⟩
  iapply (run1 c (grid1.coords t) _ (hs1_0 t) _ (hs1_1 t) _ (hs1_2 t) _ (hs1_3 t) _ (Memref.isWhole_whole _) _ (Memref.isWhole_whole _) _ (Memref.isWhole_whole _)
    (iblk1 V c 0 t) (iblk1 V c 1 t) (iblk1 V c 2 t) _ s
    (fun h => by have := (hcond1 t).1.mp h.1; have := (hcond1 t).2.mp h.2; omega) Set.univ _)
  rw [next_eq V c t s hs]; unfold ins
  isplitl [H0 H1 H2]
  · isplitl [H0]; · iexact H0
    isplitl [H1]; · iexact H1
    iexact H2
  isplitl [H3]; · iexact H3
  isplitl [HS]; · iexact HS
  iintro ⟨⟨H0, H1, H2⟩, H3, HS⟩
  isplitl [HR HS Hg]
  · iexists scAt V c t.val t.isLt; isplitr; · ipureintro; exact fun _ _ => rfl
    isplitl [HR HS]
    · isplitl [HR]; · iexact HR
      iexact HS
    iexact Hg
  isplitl [Ho]; · iexact Ho
  isplitl [H0]; · iexact H0
  isplitl [H1]; · iexact H1
  isplitl [H2]; · iexact H2
  iapply (leaves3 V c t d3); iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq]; show _ ⊢ PhiS V c 0; unfold PhiS scr
  iintro ⟨⟨HR, ⟨%d0, H0⟩, ⟨%d1, H1⟩, ⟨%d2, H2⟩⟩, Hg⟩
  iexists (d0, d1, d2); isplitr; · ipureintro; exact fun h => absurd rfl h
  isplitl [HR H0 H1 H2]
  · isplitl [HR]; · iexact HR
    isplitl [H0]; · iexact H0
    isplitl [H1]; · iexact H1
    iexact H2
  iexact Hg

theorem hout1 (c : Dev nD) : (dat1 V c).Φ (Fin.last cfg1.N) ⊢ Pipeline.ΦA spec1 c := by
  rw [PhiA1_eq]; show PhiS V c _ ⊢ _; unfold PhiS scr
  iintro ⟨%s, -, ⟨HR, H0, H1, H2⟩, Hg⟩
  isplitl [HR H0 H1 H2]
  · isplitl [HR]; · iexact HR
    isplitl [H0]; · iexists _; iexact H0
    isplitl [H1]; · iexists _; iexact H1
    iexists _; iexact H2
  iexact Hg

end Cert.Kernel.Gen1

end
-- ==== Proof.KB_Run.lean ====
import proofs.«410106_j61143154426041_3_alg».proof.Proof.KB_R0Body
import proofs.«410106_j61143154426041_3_alg».proof.Proof.KB_R1Frame
import proofs.«410106_j61143154426041_3_alg».proof.Proof.Gen.Kernel.Regions

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)
abbrev Vr0 : (c : Dev nD) → (b : Ref sig .tc) → Buf (Elt F) ((c : Thread nD τ).loc b) := fun c b => W0 m c b
def W1 (c : Dev nD) : Valuation τ sig (Elt F) :=
  Pipeline.withArrays spec0 c (W0 m c) fun w => (Gen0.dat0 (Vr0 m) c).arrAt w cfg0.N
theorem W1_arr (c : Dev nD) (w : Fin cfg0.W) :
    W1 m c (Proc.devRef .tc (Pipeline.arrRef spec0 w)) = (Gen0.dat0 (Vr0 m) c).arrAt w cfg0.N :=
  Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) :=
  Pipeline.withArrays_of_ne spec0 c _ _ b hb
abbrev W2 (c : Dev nD) : Valuation τ sig (Elt F) := StableHlo.after hostOps1 (W1 m c)
abbrev W3 (c : Dev nD) : Valuation τ sig (Elt F) := StableHlo.after hostOps1_1 (W2 m c)
abbrev W4 (c : Dev nD) : Valuation τ sig (Elt F) := StableHlo.after hostOps1_2 (W3 m c)
abbrev Vr4 : (c : Dev nD) → (b : Ref sig .tc) → Buf (Elt F) ((c : Thread nD τ).loc b) := fun c b => W4 m c b
def W5 (c : Dev nD) : Valuation τ sig (Elt F) :=
  Pipeline.withArrays spec1 c (W4 m c) fun w => (Gen1.dat1 (Vr4 m) c).arrAt w cfg1.N
theorem W5_arr (c : Dev nD) (w : Fin cfg1.W) :
    W5 m c (Proc.devRef .tc (Pipeline.arrRef spec1 w)) = (Gen1.dat1 (Vr4 m) c).arrAt w cfg1.N :=
  Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) :=
  Pipeline.withArrays_of_ne spec1 c _ _ b hb
theorem W1_v0_0 (c : Dev nD) : W1 m c (Proc.devRef .tc main_v0_0) = (Gen0.dat0 (Vr0 m) c).arrAt 2 cfg0.N := W1_arr m c 2
theorem W1_v0_1 (c : Dev nD) : W1 m c (Proc.devRef .tc main_v0_1) = (Gen0.dat0 (Vr0 m) c).arrAt 3 cfg0.N := W1_arr m c 3
theorem W5_v43 (c : Dev nD) : W5 m c (Proc.devRef .tc main_v43) = (Gen1.dat1 (Vr4 m) c).arrAt 3 cfg1.N := W5_arr m c 3

theorem W5_W1 (c : Dev nD) (b : Ref sig .tc) (h5 : ∀ w, Pipeline.arrRef spec1 w ≠ b) (h4 : b ∉ hostOps1_2_W) (h3 : b ∉ hostOps1_1_W) (h2 : b ∉ hostOps1_W) : W5 m c (Proc.devRef .tc b) = W1 m c (Proc.devRef .tc b) :=
  (W5_of_ne m c b h5).trans <| (StableHlo.after_of_writes_sub hostOps1_2 _ hostOps1_2_writes h4).trans <|
    (StableHlo.after_of_writes_sub hostOps1_1 _ hostOps1_1_writes h3).trans (StableHlo.after_of_writes_sub hostOps1 _ hostOps1_writes h2)

-- a reference no segment of the fold changes keeps its launch contents
theorem W5_W0 (c : Dev nD) (b : Ref sig .tc) (h1 : ∀ w, Pipeline.arrRef spec0 w ≠ b) (h5 : ∀ w, Pipeline.arrRef spec1 w ≠ b)
    (h4 : b ∉ hostOps1_2_W) (h3 : b ∉ hostOps1_1_W) (h2 : b ∉ hostOps1_W) :
    W5 m c (Proc.devRef .tc b) = m ((c : Thread nD τ).loc b) :=
  (W5_W1 m c b h5 h4 h3 h2).trans (W1_of_ne m c b h1)

theorem W1_in (c : Dev nD) (w : Fin cfg0.W) (hw : (cfg0.win w).isOut = false) :
    W1 m c (Proc.devRef .tc (Pipeline.arrRef spec0 w)) = m ((c : Thread nD τ).loc (Pipeline.arrRef spec0 w)) :=
  (W1_arr m c w).trans (((Gen0.dat0 (Vr0 m) c).arrAt_in w hw _).trans (Gen0.A_eq0 (Vr0 m) c w))

theorem W5_main_arg0 (c : Dev nD) : W5 m c (Proc.devRef .tc main_arg0) = m ((c : Thread nD τ).loc main_arg0) :=
  (W5_W1 m c main_arg0 (by decide) (by decide) (by decide) (by decide)).trans (W1_in m c 0 rfl)
theorem W5_main_arg1 (c : Dev nD) : W5 m c (Proc.devRef .tc main_arg1) = m ((c : Thread nD τ).loc main_arg1) :=
  W5_W0 m c main_arg1 (by decide) (by decide) (by decide) (by decide) (by decide)
theorem W5_main_arg2 (c : Dev nD) : W5 m c (Proc.devRef .tc main_arg2) = m ((c : Thread nD τ).loc main_arg2) :=
  (W5_W1 m c main_arg2 (by decide) (by decide) (by decide) (by decide)).trans (W1_in m c 1 rfl)
theorem W5_main_arg3 (c : Dev nD) : W5 m c (Proc.devRef .tc main_arg3) = m ((c : Thread nD τ).loc main_arg3) :=
  W5_W0 m c main_arg3 (by decide) (by decide) (by decide) (by decide) (by decide)
theorem W5_main_arg4 (c : Dev nD) : W5 m c (Proc.devRef .tc main_arg4) = m ((c : Thread nD τ).loc main_arg4) :=
  W5_W0 m c main_arg4 (by decide) (by decide) (by decide) (by decide) (by decide)

def pdats : (p : Fin 2) → (c : Dev nD) → Dat τ (Elt F) Unit ℕ (UR sig nD τ) ℕ (Pipeline.pin (pcfgs (F := F)) adm p) c
  | ⟨0, _⟩ => fun c => Gen0.dat0 (Vr0 m) c
  | ⟨1, _⟩ => fun c => Gen1.dat1 (Vr4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 := iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

-- a region as one step of the run, from the contents V to V'
set_option backward.isDefEq.respectTransparency.types false in
def reg (p : Fin 2) (ln : Pipeline.LaunchFacts (nD := nD) (τ := τ) cfgs p) (V V' : Dev nD → Valuation τ sig (Elt F))
    (hb : ∀ c, BodyObligation (pdats m p c) (defs₀ (F := F)) 𝒱₀ () Set.univ)
    (hq : ∀ c w, (pdats m p c).share w = fullShare) (h0 : ∀ c t, (pdats m p c).owed t = 0) (hrec : ∀ c t x, x ∈ (pdats m p c).recorded t)
    (hK : (pcfgs (F := F) p).pre.K = 0)
    (hA : ∀ c w, (pdats m p c).A w = V c (Pipeline.arrRef (cfgs p).spec w))
    (harr : ∀ c w, V' c (Proc.devRef .tc (Pipeline.arrRef (cfgs p).spec w)) = (pdats m p c).arrAt w (cfgs p).N)
    (hne : ∀ c (b : Ref sig .tc), (∀ w, Pipeline.arrRef (cfgs p).spec w ≠ b) → V' c (Proc.devRef .tc b) = V c (Proc.devRef .tc b))
    (hin : ∀ c, Pipeline.ΦA (cfgs p).spec c ⊢ (pdats m p c).Φ 0)
    (hout : ∀ c, (pdats m p c).Φ (Fin.last _) ⊢ Pipeline.ΦA (cfgs p).spec c) :
    Pipeline.RegionSeg (pcfgs (F := F)) adm (pdats m) () defs₀ 𝒱₀ L lv p where
  win := ln.win.to₀
  block_pos := ln.block_pos
  stage_whole := ln.stage_whole
  K := PEmpty
  osem k := k.elim
  ho := Pipeline.OwnSemFacts.none _
  hbody c := (hb c).loose
  hwaits := Pipeline.hwaits_of_owed_zero _ _ _ _ L lv p h0
  pre := T V
  post := T V'
  X c := iprop(∃ r, prngReg c r)
  Y c := iprop(∃ r, prngReg c r)
  Z c := Pipeline.unscopedRest (cfgs p).spec c (fun b => V c b)
  hentry c := by
    have hsplit := Pipeline.arrays_of_unscopedBufs (p := p) (pcfgs (F := F)) adm (pdats m) ln.win ln.arr_whole c (hq c) (fun b => V c b) (hA c)
    rw [Pipeline.unscopedBufs_held] at hsplit
    iintro ⟨⟨Hub, Hp, %W, HO⟩, -⟩
    ihave H := hsplit $$ Hub
    icases H with ⟨Ha, Hrest⟩
    imodintro; iframe Ha Hp Hrest
    isplitr
    · have : IsEmpty (Fin (pcfgs (F := F) p).pre.K) := hK ▸ Fin.isEmpty
      unfold Pipeline.prefHeld; rw [Finset.univ_eq_empty, BI.bigSep_empty]; iempintro
    iexists W; rw [h0]; isplitr; · ipureintro; exact fun x _ => Or.inl (hrec c 0 x)
    iexact HO
  hin c := by
    refine .trans ?_ (hin c); unfold Pipeline.ΦA
    iintro ⟨Hp, -, Hr⟩; iframe
  hout c := by
    rw [Pipeline.ownSems0_none]; refine (hout c).trans ?_; unfold Pipeline.ΦA
    iintro ⟨Hr, Hp⟩; iframe; iempintro
  hexit c := by
    have hjoin := Pipeline.unscopedBufs_of_arrays (p := p) (pcfgs (F := F)) adm
      ln.win ln.arr_whole c (pdats m) (hq c) (fun b => V c b) (fun b => V' c b) ((pdats m p c).arrAt · (cfgs p).N) (fun w => (harr c w).symm)
      fun b hb => hne c b fun w e => hb (Finset.mem_image.mpr ⟨w, Finset.mem_univ _, e⟩)
    rw [Pipeline.unscopedBufs_held] at hjoin
    iintro ⟨Ha, ⟨%W, -, HO⟩, HY, Hrest⟩
    imodintro
    isplitl [Ha Hrest]
    · iapply hjoin; isplitl [Ha] <;> iassumption
    isplitl [HY]; · iexact HY
    iexists W; rw [← h0 c (Fin.last _)]; iexact HO

def reg0 := reg m 0 launch0 (W0 m) (W1 m) (Gen0.body_obligation0 (Vr0 m)) (fun c => (pdats m 0 c).share_full fun _ => rfl)
  (fun _ _ => rfl) (fun _ _ _ => trivial) rfl (fun _ _ => rfl) (W1_arr m) (W1_of_ne m) (fun _ => .rfl) fun _ => .rfl

def reg1 := reg m 1 launch1 (W4 m) (W5 m) (Gen1.body_obligation1 (Vr4 m)) (fun c => (pdats m 1 c).share_full fun _ => rfl)
  (fun _ _ => rfl) (fun _ _ _ => trivial) rfl (fun _ _ => rfl) (W5_arr m) (W5_of_ne m) (Gen1.hin1 (Vr4 m)) (Gen1.hout1 (Vr4 m))

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m) ]

set_option backward.isDefEq.respectTransparency.types false in
theorem run_post (ρ : Dev nD → PrngReg) {Q : PUnit × MemSt nD τ sig (Elt F) → Prop}
    (hQ : ∀ s : MemSt nD τ sig (Elt F),
      (∀ c : Dev nD, ∀ b ∈ Pipeline.ucRefs τ sig, s.mem ((c : Thread nD τ).1, b) = W5 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by
      rewrite [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const]; refine .trans ?_ fupd_intro; exact sep_emp_intro)
    (T₀ := T (W0 m)) (Tₙ := Tₙ m)
    (hch := ⟨fun _ => .rfl, fun _ => .rfl, fun _ => .rfl, fun _ => .rfl, fun _ => .rfl, fun _ => sep_assoc'⟩)
    (hinit := by
      refine Pipeline.initEach L lv fun c => ?_
      rw [Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := hQ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_post m ρ fun s h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩

end Cert.Kernel.Run

end
-- ==== Proof.KI_R0Body.lean ====
import proofs.«410106_j61143154426041_3_alg».proof.Proof.Gen.KernelIdeal.Launch
import proofs.«410106_j61143154426041_3_alg».proof.Proof.Gen.KernelIdeal.Skeleton
import proofs.«410106_j61143154426041_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x512 := Rect.unit (s := S1024x512) ![0, 0] S1024x512.size inb_S1024x512_S1024x512_0_0
abbrev r0_1 : Rect S512x256 := Rect.unit (s := S512x256) ![0, 0] S512x256.size inb_S512x256_S512x256_0_0
abbrev r0_2 : Rect S1024x256 := Rect.unit (s := S1024x256) ![0, 0] S1024x256.size inb_S1024x256_S1024x256_0_0

def out0_2 (x0 : Vec F S1024x512 .f32) (x1 : Vec F S512x256 .f32) : Vec F S1024x256 .f32 :=
  View.canon [⟨r0_2, k0_pay1 (View.ld x0 r0_0) (View.ld x1 r0_1)⟩]

def out0_3 (x0 : Vec F S1024x512 .f32) (x1 : Vec F S512x256 .f32) : Vec F S1024x256 .bf16 :=
  View.canon [⟨r0_2, k0_pay2 (View.ld x0 r0_0) (View.ld x1 r0_1)⟩]

-- one piece over the whole shape covers it
theorem cover0 {e : EltTy} (p0 : Vec F S1024x256 e) (y : S1024x256.Idx) :
    ∃ pc ∈ ([⟨r0_2, p0⟩] : List (View.Piece (Elt F) S1024x256 e)), y ∈ pc.1.set :=
  View.cover_of_tiled [⟨r0_2, p0⟩] S1024x256.size (by rfl) y

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  show iprop(_ ∗ _ ∗ (∃ d, owns (c : Thread nD τ) (st0_0 t) _ ((dat0 V c).before 0 t d))
      ∗ (∃ d, owns (c : Thread nD τ) (st0_1 t) _ ((dat0 V c).before 1 t d)) ∗ _ ∗ _)
    ⊢ wp _ _ _ (bodyAt0 t) fun _ =>
      iprop((dat0 V c).Φ t.castSucc ∗ (dat0 V c).owesAt () t.castSucc
        ∗ owns (c : Thread nD τ) (st0_0 t) _ (iblk0 V c 0 t) ∗ owns (c : Thread nD τ) (st0_1 t) _ (iblk0 V c 1 t)
        ∗ owns (c : Thread nD τ) (st0_2 t) _ ((dat0 V c).after 2 t) ∗ owns (c : Thread nD τ) (st0_3 t) _ ((dat0 V c).after 3 t))
  simp only [before0_0, before0_1]
  rewrite [after0_2, after0_3]
  generalize iblk0 V c 0 t = x0; generalize iblk0 V c 1 t = x1
  unfold bodyAt0
  simp only [cc0__h_kernel_eq_skeleton]; unfold cc0__h_kernel_skel owns
  iintro ⟨HΦ, Ho, ⟨%d0, %f0, %hf0, H0⟩, ⟨%d1, %f1, %hf1, H1⟩, ⟨%d2, %f2, -, H2⟩, ⟨%d3, %f3, -, H3⟩⟩
  subst hf0; subst hf1
  sl_exec
  sl_step
  iframe HΦ Ho
  isplitl [H0]
  · iexists f0; isplitr; · ipureintro; rfl
    iexact H0
  isplitl [H1]
  · iexists f1; isplitr; · ipureintro; rfl
    iexact H1
  isplitl [H2] <;>
    (iexists _; isplitr; swap; iassumption; ipureintro; exact View.read_writes_eq_canon _ _ _ (cover0 _))

end Cert.KernelIdeal.Gen0

end
-- ==== Proof.KI_R1Runs.lean ====
import proofs.«410106_j61143154426041_3_alg».proof.Proof.Gen.KernelIdeal.Launch
import proofs.«410106_j61143154426041_3_alg».proof.Proof.Gen.KernelIdeal.Skeleton
import proofs.«410106_j61143154426041_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

/-- The reset is taken at the first column block of a row block, the output stored at the last: decided over the 64 points. -/
theorem hcond1 : ∀ t : Fin cfg1.N, (cond1_0 (grid1.coords t) ↔ t.val % 8 = 0) ∧ (cond1_1 (grid1.coords t) ↔ t.val % 8 = 7) :=
  (by decide +kernel : ∀ t : Fin grid1.N, _)

theorem live1 : ∀ t : Fin cfg1.N, cfg1.idle 0 (grid1.coords t) = false ∧ cfg1.idle 1 (grid1.coords t) = false ∧ cfg1.idle 2 (grid1.coords t) = false
    ∧ (t.val % 8 = 7 → cfg1.idle 3 (grid1.coords t) = false)
    ∧ (¬t.val % 8 = 7 → cfg1.idle 3 (grid1.coords t) = true ∧ (cfg1.win 3).flush t = false) :=
  (by decide +kernel : ∀ t : Fin grid1.N, _)

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x256 .f32 := win1_3.stage (cfg1.slots t 3)
abbrev hs1_3 (t : Fin cfg1.N) : (ms1_3 t).IsWhole := hstage1_3 ((cfg1.slots t 3).cast nbuf1_3)
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2

def restStg1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

theorem sep_assoc_eq (P Q R : sProp 𝕄) : iprop((P ∗ Q) ∗ R) = iprop(P ∗ Q ∗ R) :=
  BI.equiv_iff.mp ⟨sep_assoc, sep_assoc'⟩

theorem PhiA1_eq (c : Dev nD) :
    (Pipeline.ΦA spec1 c : sProp 𝕄)
      = iprop(iprop(restStg1 (F := F) c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; unfold restStg1
  simp only [scM1_0, scM1_1, scM1_2, owns_whole, sep_assoc_eq]; try rfl

end Cert.KernelIdeal.Gen1

end
-- ==== Proof.KI_R1Body.lean ====
import proofs.«410106_j61143154426041_3_alg».proof.Proof.KI_R1Runs
import Idealize.ShloMosaic.Lib.Pipeline.Value

set_option maxRecDepth 16384

noncomputable section

namespace Cert.KernelIdeal.Gen1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- After a list of stores whose last one fills the whole shape, reading gives that store's payload. -/
theorem read_store {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w :=
  (View.read_writes_eq_canon v f _ fun y => ⟨_, List.mem_cons_self, View.mem_set_unit_zero h inb y⟩).trans
    (View.canon_cons_unit_zero h inb w L)

/-- The carried state of the streamed softmax: running maximum, running sum, accumulator. -/
abbrev Sc (F : FTy → Type) [FloatOps F] := Vec F S1024x1 .f32 × Vec F S1024x1 .f32 × Vec F S1024x256 .f32

def mInit : Vec F S1024x1 .f32 := k1_pay4
def lInit : Vec F S1024x1 .f32 := k1_pay5
def aInit : Vec F S1024x256 .f32 := k1_pay6
def mStep (x0 : Vec F S1024x1024 .f32) (m0 : Vec F S1024x1 .f32) : Vec F S1024x1 .f32 := k1_pay2 (k1_pay8 x0 m0)
def lStep (x0 : Vec F S1024x1024 .f32) (m0 : Vec F S1024x1 .f32) (l0 : Vec F S1024x1 .f32) : Vec F S1024x1 .f32 := k1_pay11 x0 m0 m0 l0
def aStep (x0 : Vec F S1024x1024 .f32) (hb : Vec F S1024x256 .bf16) (m0 : Vec F S1024x1 .f32) (a0 : Vec F S1024x256 .f32) : Vec F S1024x256 .f32 := k1_pay1 (k1_pay12 x0 m0 m0 hb a0)
def oStep (acc : Vec F S1024x256 .f32) (l : Vec F S1024x1 .f32) (bias : Vec F S1x256 .f32) : Vec F S1024x256 .f32 := k1_pay3 acc l bias
def hblkOf (i : grid1.Coords) (x1 : Vec F S8192x256 .bf16) : Vec F S1024x256 .bf16 :=
  View.ld x1 (Rect.unit (s := S8192x256) (k1_off1 i) S1024x256.size (k1_off1_inb i))

def init : Sc F := (mInit, lInit, aInit)
def step (i : grid1.Coords) (x0 : Vec F S1024x1024 .f32) (x1 : Vec F S8192x256 .bf16) (s : Sc F) : Sc F :=
  (mStep x0 s.1, lStep x0 s.1 s.2.1, aStep x0 (hblkOf i x1) s.1 s.2.2)
/-- One point of the grid: the state is reset at the first column block, then stepped. -/
def next (i : grid1.Coords) (x0 : Vec F S1024x1024 .f32) (x1 : Vec F S8192x256 .bf16) (s : Sc F) : Sc F :=
  step i x0 x1 (if cond1_0 i then init else s)
/-- The output block, written at the last column block only. -/
def outOf (i : grid1.Coords) (x2 : Vec F S1x256 .f32) (s : Sc F) (xi3 : Vec F S1024x256 .f32) : Vec F S1024x256 .f32 :=
  if cond1_1 i then oStep s.2.2 s.2.1 x2 else xi3

variable (c : Dev nD) (i : grid1.Coords)
  (a2 : Memref sig .tc .vmem S1024x1024 .f32) (h2 : a2.IsWhole) (a3 : Memref sig .tc .vmem S8192x256 .bf16) (h3 : a3.IsWhole)
  (a4 : Memref sig .tc .vmem S1x256 .f32) (h4 : a4.IsWhole) (a5 : Memref sig .tc .vmem S1024x256 .f32) (h5 : a5.IsWhole)
  (a6 : Memref sig .tc .vmem S1024x1 .f32) (h6 : a6.IsWhole) (a7 : Memref sig .tc .vmem S1024x1 .f32) (h7 : a7.IsWhole)
  (a8 : Memref sig .tc .vmem S1024x256 .f32) (h8 : a8.IsWhole)
  (x0 : Vec F S1024x1024 .f32) (x1 : Vec F S8192x256 .bf16) (x2 : Vec F S1x256 .f32) (xi3 : Vec F S1024x256 .f32) (s : Sc F)

def ins : sProp 𝕄 := iprop(owns (c : Thread nD τ) a2 fullShare x0 ∗ owns (c : Thread nD τ) a3 fullShare x1 ∗ owns (c : Thread nD τ) a4 fullShare x2)
def scr : sProp 𝕄 := iprop(owns (c : Thread nD τ) a6 fullShare s.1 ∗ owns (c : Thread nD τ) a7 fullShare s.2.1 ∗ owns (c : Thread nD τ) a8 fullShare s.2.2)

set_option maxHeartbeats 4000000 in
/-- One run of the body: the inputs stay, the carried state moves to `next`, the output block to `outOf`. -/
theorem run1 (hx : ¬(cond1_0 i ∧ cond1_1 i)) (E : Set ℕ) (K : PUnit → sProp 𝕄) :
    iprop(ins c a2 a3 a4 x0 x1 x2 ∗ owns (c : Thread nD τ) a5 fullShare xi3 ∗ scr c a6 a7 a8 s
        ∗ (iprop(ins c a2 a3 a4 x0 x1 x2 ∗ owns (c : Thread nD τ) a5 fullShare (outOf i x2 (next i x0 x1 s) xi3) ∗ scr c a6 a7 a8 (next i x0 x1 s)) -∗ K ⟨⟩))
      ⊢ wp frame (wpE (defs₀ (F := F)) Variants.none c none) E (cc1__gat_kernel i a2 h2 a3 h3 a4 h4 a5 h5 a6 h6 a7 h7 a8 h8) K := by
  obtain ⟨m0, l0, ac0⟩ := s
  unfold next outOf
  by_cases hc0 : cond1_0 i <;> by_cases hc1 : cond1_1 i
  · exact absurd ⟨hc0, hc1⟩ hx
  all_goals
    first | rw [if_pos hc0] | rw [if_neg hc0]
    first | rw [if_pos hc1] | rw [if_neg hc1]
    simp only [cc1__gat_kernel_eq_skeleton]; unfold cc1__gat_kernel_skel
    simp only [k1_part1_eq_skeleton]
    unfold ins scr owns; dsimp only
    iintro ⟨⟨⟨%f0, %hf0, H0⟩, ⟨%f1, %hf1, H1⟩, ⟨%f2, %hf2, H2⟩⟩, ⟨%f3, %hf3, H3⟩, ⟨⟨%fs0, %hfs0, HS0⟩, ⟨%fs1, %hfs1, HS1⟩, ⟨%fs2, %hfs2, HS2⟩⟩, Hk⟩
    obtain rfl := h2.eq_unread hf0; obtain rfl := h3.eq_unread hf1; obtain rfl := h4.eq_unread hf2; obtain rfl := h5.eq_unread hf3
    obtain rfl := h6.eq_unread hfs0; obtain rfl := h7.eq_unread hfs1; obtain rfl := h8.eq_unread hfs2
    sl_exec (disch := first | exact hc0 | exact hc1)
    sl_step
    sl_unfold_words
    simp only [View.readAt_eq_ld, h2.read_unread, h3.read_unread, h4.read_unread, h6.read_unread, h7.read_unread, h8.read_unread, View.ld_unit_zero (S := S1024x1024) hz2, View.ld_unit_zero (S := S1024x1) hz2, View.ld_unit_zero (S := S1024x256) hz2, View.ld_unit_zero (S := S1x256) hz2, View.readCov_unit_zero (S := S1024x1) _ hz2, View.readCov_unit_zero (S := S1024x256) _ hz2]
    iapply Hk
    isplitl [H0 H1 H2]
    · isplitl [H0]
      · iexists _; isplitr; · ipureintro; exact h2.read_unread _
        iexact H0
      isplitl [H1]
      · iexists _; isplitr; · ipureintro; exact h3.read_unread _
        iexact H1
      iexists _; isplitr; · ipureintro; exact h4.read_unread _
      iexact H2
    isplitl [H3]
    · iexists _; isplitr
      swap; · iexact H3
      ipureintro; first | exact h5.read_unread _ | (apply read_store; exact hz2)
    isplitl [HS0]
    · iexists _; isplitr
      swap; · iexact HS0
      ipureintro; apply read_store; exact hz2
    isplitl [HS1]
    · iexists _; isplitr
      swap; · iexact HS1
      ipureintro; apply read_store; exact hz2
    iexists _; isplitr
    swap; · iexact HS2
    ipureintro; apply read_store; exact hz2

end Cert.KernelIdeal.Gen1

end
-- ==== Proof.KI_R1Frame.lean ====
import proofs.«410106_j61143154426041_3_alg».proof.Proof.KI_R1Body

set_option maxRecDepth 16384

noncomputable section

namespace Cert.KernelIdeal.Gen1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The carried state after the point at position `n`: the points' steps folded along the grid's order. -/
def scAt (c : Dev nD) : (n : ℕ) → n < cfg1.N → Sc F
  | 0, hn => next (grid1.coords ⟨0, hn⟩) (iblk1 V c 0 ⟨0, hn⟩) (iblk1 V c 1 ⟨0, hn⟩) init
  | n + 1, hn => next (grid1.coords ⟨n + 1, hn⟩) (iblk1 V c 0 ⟨n + 1, hn⟩) (iblk1 V c 1 ⟨n + 1, hn⟩) (scAt c n (Nat.lt_of_succ_lt hn))

/-- A point steps whatever state agrees with the fold so far: the first point resets, so there any state does. -/
theorem next_eq (c : Dev nD) (t : Fin cfg1.N) (s : Sc F) (hs : ∀ _ : t.val ≠ 0, ∀ hn, s = scAt V c (t.val - 1) hn) :
    next (grid1.coords t) (iblk1 V c 0 t) (iblk1 V c 1 t) s = scAt V c t.val t.isLt := by
  obtain ⟨n, hn⟩ := t
  cases n with
  | zero => unfold scAt next; rw [if_pos ((hcond1 ⟨0, hn⟩).1.mpr rfl), if_pos ((hcond1 ⟨0, hn⟩).1.mpr rfl)]
  | succ n => rw [hs (Nat.succ_ne_zero n) (Nat.lt_of_succ_lt hn)]; rfl

/-- The fold, a point at a time: a first column block starts from the reset state, any other from the point before. -/
theorem scAt_eq (c : Dev nD) (t : Fin cfg1.N) :
    scAt V c t.val t.isLt = step (grid1.coords t) (iblk1 V c 0 t) (iblk1 V c 1 t)
      (if t.val % 8 = 0 then init else scAt V c (t.val - 1) (Nat.lt_of_le_of_lt (Nat.sub_le _ _) t.isLt)) := by
  rw [← next_eq V c t (scAt V c (t.val - 1) (Nat.lt_of_le_of_lt (Nat.sub_le _ _) t.isLt)) fun _ _ => rfl, next]
  by_cases h : t.val % 8 = 0
  · rw [if_pos h, if_pos ((hcond1 t).1.mpr h)]
  · rw [if_neg h, if_neg fun h' => h ((hcond1 t).1.mp h')]

/-- The invariant before position `n`: the carried state, which past the first point is the fold's. -/
def PhiS (c : Dev nD) (n : ℕ) : sProp 𝕄 :=
  iprop(∃ s : Sc F, ⌜∀ _ : n ≠ 0, ∀ hn, s = scAt V c (n - 1) hn⌝ ∗ (restStg1 (F := F) c ∗ scr c scM1_0 scM1_1 scM1_2 s) ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => oStep (scAt V c t.val t.isLt).2.2 (scAt V c t.val t.isLt).2.1 (iblk1 V c 2 t)
  Φ t := PhiS V c t.val
  q _ := fullShare
  owed _ := 0

theorem after1_3 (c : Dev nD) (t : Fin cfg1.N) :
    (dat1 V c).after 3 t = oStep (scAt V c t.val t.isLt).2.2 (scAt V c t.val t.isLt).2.1 (iblk1 V c 2 t) := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem leaves_live {c : Dev nD} (dat : Dat τ (Elt F) Unit ℕ (UR sig nD τ) ℕ cfg1 c) (w : Fin cfg1.W) (t : Fin cfg1.N)
    (h : cfg1.idle w (grid1.coords t) = false) :
    dat.leavesExact w t = owns (c : Thread nD τ) ((cfg1.win w).stage (cfg1.slots t w)) fullShare (dat.after w t) := by
  unfold Dat.leavesExact; rw [h]

theorem leaves3 (c : Dev nD) (t : Fin cfg1.N) (d) :
    owns (c : Thread nD τ) (ms1_3 t) fullShare (outOf (grid1.coords t) (iblk1 V c 2 t) (scAt V c t.val t.isLt) ((dat1 V c).before 3 t d))
      ⊢ (dat1 V c).leavesExact 3 t := by
  obtain ⟨-, -, -, l3, l3'⟩ := live1 t
  by_cases h7 : t.val % 8 = 7
  · rw [leaves_live _ 3 t (l3 h7), outOf, if_pos ((hcond1 t).2.mpr h7)]; exact .rfl
  · rw [Dat.leavesExact_idle _ 3 t (l3' h7).1 (l3' h7).2, outOf, if_neg fun h => h7 ((hcond1 t).2.mp h)]
    iintro H; iexists d; iexact H

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  obtain ⟨l0, l1, l2, -, -⟩ := live1 t
  simp only [before1_0, before1_1, before1_2]
  rw [leaves_live _ 0 t l0, leaves_live _ 1 t l1, leaves_live _ 2 t l2]
  show iprop(PhiS V c t.val ∗ _) ⊢ wp _ _ _ _ (fun _ => iprop(PhiS V c (t.val + 1) ∗ (dat1 V c).owesAt () t.castSucc ∗ _))
  unfold PhiS
  iintro ⟨⟨%s, %hs, ⟨HR, HS⟩, Hg⟩, Ho, ⟨%d0, H0⟩, ⟨%d1, H1⟩, ⟨%d2, H2⟩, ⟨%d3, H3⟩⟩
  iapply (run1 c (grid1.coords t) _ (hs1_0 t) _ (hs1_1 t) _ (hs1_2 t) _ (hs1_3 t) _ (Memref.isWhole_whole _) _ (Memref.isWhole_whole _) _ (Memref.isWhole_whole _)
    (iblk1 V c 0 t) (iblk1 V c 1 t) (iblk1 V c 2 t) _ s
    (fun h => by have := (hcond1 t).1.mp h.1; have := (hcond1 t).2.mp h.2; omega) Set.univ _)
  rw [next_eq V c t s hs]; unfold ins
  isplitl [H0 H1 H2]
  · isplitl [H0]; · iexact H0
    isplitl [H1]; · iexact H1
    iexact H2
  isplitl [H3]; · iexact H3
  isplitl [HS]; · iexact HS
  iintro ⟨⟨H0, H1, H2⟩, H3, HS⟩
  isplitl [HR HS Hg]
  · iexists scAt V c t.val t.isLt; isplitr; · ipureintro; exact fun _ _ => rfl
    isplitl [HR HS]
    · isplitl [HR]; · iexact HR
      iexact HS
    iexact Hg
  isplitl [Ho]; · iexact Ho
  isplitl [H0]; · iexact H0
  isplitl [H1]; · iexact H1
  isplitl [H2]; · iexact H2
  iapply (leaves3 V c t d3); iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq]; show _ ⊢ PhiS V c 0; unfold PhiS scr
  iintro ⟨⟨HR, ⟨%d0, H0⟩, ⟨%d1, H1⟩, ⟨%d2, H2⟩⟩, Hg⟩
  iexists (d0, d1, d2); isplitr; · ipureintro; exact fun h => absurd rfl h
  isplitl [HR H0 H1 H2]
  · isplitl [HR]; · iexact HR
    isplitl [H0]; · iexact H0
    isplitl [H1]; · iexact H1
    iexact H2
  iexact Hg

theorem hout1 (c : Dev nD) : (dat1 V c).Φ (Fin.last cfg1.N) ⊢ Pipeline.ΦA spec1 c := by
  rw [PhiA1_eq]; show PhiS V c _ ⊢ _; unfold PhiS scr
  iintro ⟨%s, -, ⟨HR, H0, H1, H2⟩, Hg⟩
  isplitl [HR H0 H1 H2]
  · isplitl [HR]; · iexact HR
    isplitl [H0]; · iexists _; iexact H0
    isplitl [H1]; · iexists _; iexact H1
    iexists _; iexact H2
  iexact Hg

end Cert.KernelIdeal.Gen1

end
-- ==== Proof.KI_Run.lean ====
import proofs.«410106_j61143154426041_3_alg».proof.Proof.KI_R0Body
import proofs.«410106_j61143154426041_3_alg».proof.Proof.KI_R1Frame
import proofs.«410106_j61143154426041_3_alg».proof.Proof.Gen.KernelIdeal.Regions

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)
abbrev Vr0 : (c : Dev nD) → (b : Ref sig .tc) → Buf (Elt F) ((c : Thread nD τ).loc b) := fun c b => W0 m c b
def W1 (c : Dev nD) : Valuation τ sig (Elt F) :=
  Pipeline.withArrays spec0 c (W0 m c) fun w => (Gen0.dat0 (Vr0 m) c).arrAt w cfg0.N
theorem W1_arr (c : Dev nD) (w : Fin cfg0.W) :
    W1 m c (Proc.devRef .tc (Pipeline.arrRef spec0 w)) = (Gen0.dat0 (Vr0 m) c).arrAt w cfg0.N :=
  Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) :=
  Pipeline.withArrays_of_ne spec0 c _ _ b hb
abbrev W2 (c : Dev nD) : Valuation τ sig (Elt F) := StableHlo.after hostOps1 (W1 m c)
abbrev W3 (c : Dev nD) : Valuation τ sig (Elt F) := StableHlo.after hostOps1_1 (W2 m c)
abbrev W4 (c : Dev nD) : Valuation τ sig (Elt F) := StableHlo.after hostOps1_2 (W3 m c)
abbrev Vr4 : (c : Dev nD) → (b : Ref sig .tc) → Buf (Elt F) ((c : Thread nD τ).loc b) := fun c b => W4 m c b
def W5 (c : Dev nD) : Valuation τ sig (Elt F) :=
  Pipeline.withArrays spec1 c (W4 m c) fun w => (Gen1.dat1 (Vr4 m) c).arrAt w cfg1.N
theorem W5_arr (c : Dev nD) (w : Fin cfg1.W) :
    W5 m c (Proc.devRef .tc (Pipeline.arrRef spec1 w)) = (Gen1.dat1 (Vr4 m) c).arrAt w cfg1.N :=
  Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) :=
  Pipeline.withArrays_of_ne spec1 c _ _ b hb
theorem W1_v0_0 (c : Dev nD) : W1 m c (Proc.devRef .tc main_v0_0) = (Gen0.dat0 (Vr0 m) c).arrAt 2 cfg0.N := W1_arr m c 2
theorem W1_v0_1 (c : Dev nD) : W1 m c (Proc.devRef .tc main_v0_1) = (Gen0.dat0 (Vr0 m) c).arrAt 3 cfg0.N := W1_arr m c 3
theorem W5_v43 (c : Dev nD) : W5 m c (Proc.devRef .tc main_v43) = (Gen1.dat1 (Vr4 m) c).arrAt 3 cfg1.N := W5_arr m c 3

theorem W5_W1 (c : Dev nD) (b : Ref sig .tc) (h5 : ∀ w, Pipeline.arrRef spec1 w ≠ b) (h4 : b ∉ hostOps1_2_W) (h3 : b ∉ hostOps1_1_W) (h2 : b ∉ hostOps1_W) : W5 m c (Proc.devRef .tc b) = W1 m c (Proc.devRef .tc b) :=
  (W5_of_ne m c b h5).trans <| (StableHlo.after_of_writes_sub hostOps1_2 _ hostOps1_2_writes h4).trans <|
    (StableHlo.after_of_writes_sub hostOps1_1 _ hostOps1_1_writes h3).trans (StableHlo.after_of_writes_sub hostOps1 _ hostOps1_writes h2)

-- a reference no segment of the fold changes keeps its launch contents
theorem W5_W0 (c : Dev nD) (b : Ref sig .tc) (h1 : ∀ w, Pipeline.arrRef spec0 w ≠ b) (h5 : ∀ w, Pipeline.arrRef spec1 w ≠ b)
    (h4 : b ∉ hostOps1_2_W) (h3 : b ∉ hostOps1_1_W) (h2 : b ∉ hostOps1_W) :
    W5 m c (Proc.devRef .tc b) = m ((c : Thread nD τ).loc b) :=
  (W5_W1 m c b h5 h4 h3 h2).trans (W1_of_ne m c b h1)

theorem W1_in (c : Dev nD) (w : Fin cfg0.W) (hw : (cfg0.win w).isOut = false) :
    W1 m c (Proc.devRef .tc (Pipeline.arrRef spec0 w)) = m ((c : Thread nD τ).loc (Pipeline.arrRef spec0 w)) :=
  (W1_arr m c w).trans (((Gen0.dat0 (Vr0 m) c).arrAt_in w hw _).trans (Gen0.A_eq0 (Vr0 m) c w))

theorem W5_main_arg0 (c : Dev nD) : W5 m c (Proc.devRef .tc main_arg0) = m ((c : Thread nD τ).loc main_arg0) :=
  (W5_W1 m c main_arg0 (by decide) (by decide) (by decide) (by decide)).trans (W1_in m c 0 rfl)
theorem W5_main_arg1 (c : Dev nD) : W5 m c (Proc.devRef .tc main_arg1) = m ((c : Thread nD τ).loc main_arg1) :=
  W5_W0 m c main_arg1 (by decide) (by decide) (by decide) (by decide) (by decide)
theorem W5_main_arg2 (c : Dev nD) : W5 m c (Proc.devRef .tc main_arg2) = m ((c : Thread nD τ).loc main_arg2) :=
  (W5_W1 m c main_arg2 (by decide) (by decide) (by decide) (by decide)).trans (W1_in m c 1 rfl)
theorem W5_main_arg3 (c : Dev nD) : W5 m c (Proc.devRef .tc main_arg3) = m ((c : Thread nD τ).loc main_arg3) :=
  W5_W0 m c main_arg3 (by decide) (by decide) (by decide) (by decide) (by decide)
theorem W5_main_arg4 (c : Dev nD) : W5 m c (Proc.devRef .tc main_arg4) = m ((c : Thread nD τ).loc main_arg4) :=
  W5_W0 m c main_arg4 (by decide) (by decide) (by decide) (by decide) (by decide)

def pdats : (p : Fin 2) → (c : Dev nD) → Dat τ (Elt F) Unit ℕ (UR sig nD τ) ℕ (Pipeline.pin (pcfgs (F := F)) adm p) c
  | ⟨0, _⟩ => fun c => Gen0.dat0 (Vr0 m) c
  | ⟨1, _⟩ => fun c => Gen1.dat1 (Vr4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 := iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

-- a region as one step of the run, from the contents V to V'
set_option backward.isDefEq.respectTransparency.types false in
def reg (p : Fin 2) (ln : Pipeline.LaunchFacts (nD := nD) (τ := τ) cfgs p) (V V' : Dev nD → Valuation τ sig (Elt F))
    (hb : ∀ c, BodyObligation (pdats m p c) (defs₀ (F := F)) 𝒱₀ () Set.univ)
    (hq : ∀ c w, (pdats m p c).share w = fullShare) (h0 : ∀ c t, (pdats m p c).owed t = 0) (hrec : ∀ c t x, x ∈ (pdats m p c).recorded t)
    (hK : (pcfgs (F := F) p).pre.K = 0)
    (hA : ∀ c w, (pdats m p c).A w = V c (Pipeline.arrRef (cfgs p).spec w))
    (harr : ∀ c w, V' c (Proc.devRef .tc (Pipeline.arrRef (cfgs p).spec w)) = (pdats m p c).arrAt w (cfgs p).N)
    (hne : ∀ c (b : Ref sig .tc), (∀ w, Pipeline.arrRef (cfgs p).spec w ≠ b) → V' c (Proc.devRef .tc b) = V c (Proc.devRef .tc b))
    (hin : ∀ c, Pipeline.ΦA (cfgs p).spec c ⊢ (pdats m p c).Φ 0)
    (hout : ∀ c, (pdats m p c).Φ (Fin.last _) ⊢ Pipeline.ΦA (cfgs p).spec c) :
    Pipeline.RegionSeg (pcfgs (F := F)) adm (pdats m) () defs₀ 𝒱₀ L lv p where
  win := ln.win.to₀
  block_pos := ln.block_pos
  stage_whole := ln.stage_whole
  K := PEmpty
  osem k := k.elim
  ho := Pipeline.OwnSemFacts.none _
  hbody c := (hb c).loose
  hwaits := Pipeline.hwaits_of_owed_zero _ _ _ _ L lv p h0
  pre := T V
  post := T V'
  X c := iprop(∃ r, prngReg c r)
  Y c := iprop(∃ r, prngReg c r)
  Z c := Pipeline.unscopedRest (cfgs p).spec c (fun b => V c b)
  hentry c := by
    have hsplit := Pipeline.arrays_of_unscopedBufs (p := p) (pcfgs (F := F)) adm (pdats m) ln.win ln.arr_whole c (hq c) (fun b => V c b) (hA c)
    rw [Pipeline.unscopedBufs_held] at hsplit
    iintro ⟨⟨Hub, Hp, %W, HO⟩, -⟩
    ihave H := hsplit $$ Hub
    icases H with ⟨Ha, Hrest⟩
    imodintro; iframe Ha Hp Hrest
    isplitr
    · have : IsEmpty (Fin (pcfgs (F := F) p).pre.K) := hK ▸ Fin.isEmpty
      unfold Pipeline.prefHeld; rw [Finset.univ_eq_empty, BI.bigSep_empty]; iempintro
    iexists W; rw [h0]; isplitr; · ipureintro; exact fun x _ => Or.inl (hrec c 0 x)
    iexact HO
  hin c := by
    refine .trans ?_ (hin c); unfold Pipeline.ΦA
    iintro ⟨Hp, -, Hr⟩; iframe
  hout c := by
    rw [Pipeline.ownSems0_none]; refine (hout c).trans ?_; unfold Pipeline.ΦA
    iintro ⟨Hr, Hp⟩; iframe; iempintro
  hexit c := by
    have hjoin := Pipeline.unscopedBufs_of_arrays (p := p) (pcfgs (F := F)) adm
      ln.win ln.arr_whole c (pdats m) (hq c) (fun b => V c b) (fun b => V' c b) ((pdats m p c).arrAt · (cfgs p).N) (fun w => (harr c w).symm)
      fun b hb => hne c b fun w e => hb (Finset.mem_image.mpr ⟨w, Finset.mem_univ _, e⟩)
    rw [Pipeline.unscopedBufs_held] at hjoin
    iintro ⟨Ha, ⟨%W, -, HO⟩, HY, Hrest⟩
    imodintro
    isplitl [Ha Hrest]
    · iapply hjoin; isplitl [Ha] <;> iassumption
    isplitl [HY]; · iexact HY
    iexists W; rw [← h0 c (Fin.last _)]; iexact HO

def reg0 := reg m 0 launch0 (W0 m) (W1 m) (Gen0.body_obligation0 (Vr0 m)) (fun c => (pdats m 0 c).share_full fun _ => rfl)
  (fun _ _ => rfl) (fun _ _ _ => trivial) rfl (fun _ _ => rfl) (W1_arr m) (W1_of_ne m) (fun _ => .rfl) fun _ => .rfl

def reg1 := reg m 1 launch1 (W4 m) (W5 m) (Gen1.body_obligation1 (Vr4 m)) (fun c => (pdats m 1 c).share_full fun _ => rfl)
  (fun _ _ => rfl) (fun _ _ _ => trivial) rfl (fun _ _ => rfl) (W5_arr m) (W5_of_ne m) (Gen1.hin1 (Vr4 m)) (Gen1.hout1 (Vr4 m))

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m) ]

set_option backward.isDefEq.respectTransparency.types false in
theorem run_post (ρ : Dev nD → PrngReg) {Q : PUnit × MemSt nD τ sig (Elt F) → Prop}
    (hQ : ∀ s : MemSt nD τ sig (Elt F),
      (∀ c : Dev nD, ∀ b ∈ Pipeline.ucRefs τ sig, s.mem ((c : Thread nD τ).1, b) = W5 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by
      rewrite [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by rw [BI.bigSep_emp_const]; refine .trans ?_ fupd_intro; exact sep_emp_intro)
    (T₀ := T (W0 m)) (Tₙ := Tₙ m)
    (hch := ⟨fun _ => .rfl, fun _ => .rfl, fun _ => .rfl, fun _ => .rfl, fun _ => .rfl, fun _ => sep_assoc'⟩)
    (hinit := by
      refine Pipeline.initEach L lv fun c => ?_
      rw [Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := hQ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_post m ρ fun s h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩

end Cert.KernelIdeal.Run

end
-- ==== Proof.Softmax.lean ====
import Idealize.ShloMosaic.PureOps.Ideal
import Mathlib.Algebra.BigOperators.Group.Finset.Basic
import Mathlib.Order.CompleteLattice.Finset
import Mathlib.Algebra.BigOperators.Ring.Finset
import Mathlib.Algebra.Order.BigOperators.Group.Finset
import Mathlib.Analysis.Complex.Exponential
import Mathlib.Data.EReal.Operations

noncomputable section

namespace Cert.Softmax

open Idealize.ShloMosaic

variable {ι : Type} [DecidableEq ι]

def rmax (a : ι → EReal) (S : Finset ι) : EReal := S.sup a

def rsum (a : ι → EReal) (S : Finset ι) : EReal := ∑ j ∈ S, Ideal.exp (a j - rmax a S)

def racc (a h : ι → EReal) (S : Finset ι) : EReal := ∑ j ∈ S, Ideal.exp (a j - rmax a S) * h j

def Real' (f : ι → EReal) : Prop := ∀ j, ∃ r : ℝ, f j = (r : EReal)

variable (a h : ι → EReal) (ha : Real' a) (hh : Real' h) (S T : Finset ι)

theorem rmax_empty : rmax a ∅ = ⊥ := Finset.sup_empty

theorem rsum_empty : rsum a ∅ = 0 := Finset.sum_empty

theorem racc_empty : racc a h ∅ = 0 := Finset.sum_empty

theorem rmax_union : max (rmax a S) (rmax a T) = rmax a (S ∪ T) :=
  (Finset.sup_union).symm

theorem coe_sum (f : ι → ℝ) : ∑ j ∈ S, ((f j : ℝ) : EReal) = ((∑ j ∈ S, f j : ℝ) : EReal) := by
  induction S using Finset.induction_on with
  | empty => simp
  | insert x s hx ih => rw [Finset.sum_insert hx, Finset.sum_insert hx, ih, EReal.coe_add]

include ha

-- a maximum over a nonempty finite set is attained
theorem rmax_real (hS : S.Nonempty) : ∃ r : ℝ, rmax a S = (r : EReal) := by
  obtain ⟨i, -, hi⟩ := Finset.exists_mem_eq_sup S hS a
  rw [rmax, hi]
  exact ha i

include hh

-- with real logits, values and shift a weighted sum of exponentials is the real one
theorem racc_coe (hS : S.Nonempty) : ∃ (a' h' : ι → ℝ) (m : ℝ), (∀ j, a j = (a' j : EReal)) ∧ (∀ j, h j = (h' j : EReal))
    ∧ rmax a S = (m : EReal) ∧ ∀ (u : ℝ) (U : Finset ι),
      ∑ j ∈ U, Ideal.exp (a j - (u : EReal)) * h j = ((∑ j ∈ U, Real.exp (a' j - u) * h' j : ℝ) : EReal) := by
  obtain ⟨m, hm⟩ := rmax_real a ha S hS
  choose a' ha' using (show ∀ j, ∃ r : ℝ, a j = (r : EReal) from ha)
  choose h' hh' using (show ∀ j, ∃ r : ℝ, h j = (r : EReal) from hh)
  refine ⟨a', h', m, ha', hh', hm, fun u U => ?_⟩
  rw [← coe_sum]
  exact Finset.sum_congr rfl fun j _ => by rw [ha' j, hh' j, ← EReal.coe_sub, Ideal.exp_coe, ← EReal.coe_mul]

-- the old sum is rescaled by exp (old maximum − new maximum), which is 0 when S is empty
theorem racc_step (hd : Disjoint S T) (hT : T.Nonempty) :
    Ideal.exp (rmax a S - rmax a (S ∪ T)) * racc a h S + ∑ j ∈ T, Ideal.exp (a j - rmax a (S ∪ T)) * h j
      = racc a h (S ∪ T) := by
  rcases S.eq_empty_or_nonempty with rfl | hS
  · rw [rmax_empty, EReal.bot_sub, Ideal.exp_bot, racc_empty, zero_mul, zero_add, Finset.empty_union]
    rfl
  · obtain ⟨a', h', m, -, -, hm, key⟩ := racc_coe a h ha hh S hS
    obtain ⟨u, hu⟩ := rmax_real a ha (S ∪ T) (hS.mono Finset.subset_union_left)
    rw [racc, racc, hm, hu, key, key, key, ← EReal.coe_sub, Ideal.exp_coe, ← EReal.coe_mul, ← EReal.coe_add,
      Finset.sum_union hd, Finset.mul_sum]
    refine congrArg (fun z : ℝ => ((z + _ : ℝ) : EReal)) (Finset.sum_congr rfl fun j _ => ?_)
    rw [← mul_assoc, ← Real.exp_add]
    congr 2
    ring

omit hh in
-- the normaliser is the weighted sum with every value 1
theorem rsum_step (hd : Disjoint S T) (hT : T.Nonempty) :
    Ideal.exp (rmax a S - rmax a (S ∪ T)) * rsum a S + ∑ j ∈ T, Ideal.exp (a j - rmax a (S ∪ T)) = rsum a (S ∪ T) := by
  have := racc_step a (fun _ => 1) ha (fun _ => ⟨1, EReal.coe_one.symm⟩) S T hd hT
  simpa only [racc, rsum, mul_one] using this

theorem racc_div_rsum (hS : S.Nonempty) :
    Ideal.div (racc a h S) (rsum a S)
      = ∑ j ∈ S, Ideal.div (Ideal.exp (a j - rmax a S)) (rsum a S) * h j := by
  obtain ⟨a', h', m, ha', hh', hm, key⟩ := racc_coe a h ha hh S hS
  have hr : rsum a S = ((∑ j ∈ S, Real.exp (a' j - m) : ℝ) : EReal) := by
    rw [rsum, hm, ← coe_sum]
    exact Finset.sum_congr rfl fun j _ => by rw [ha' j, ← EReal.coe_sub, Ideal.exp_coe]
  have hpos : (0 : ℝ) < ∑ j ∈ S, Real.exp (a' j - m) := Finset.sum_pos (fun j _ => Real.exp_pos _) hS
  rw [hr, racc, hm, key, Ideal.div_coe hpos.ne', ← EReal.coe_mul, Finset.sum_mul, ← coe_sum]
  refine Finset.sum_congr rfl (fun j _ => ?_)
  rw [Ideal.div_coe hpos.ne', ha' j, hh' j, ← EReal.coe_sub, Ideal.exp_coe, ← EReal.coe_mul, ← EReal.coe_mul]
  congr 1
  ring

end Cert.Softmax

end
-- ==== Proof.Spec.lean ====
import Idealize.ShloMosaic.PureOps.Ideal
import Idealize.ShloMosaic.Lib.ValueIdx
import proofs.«410106_j61143154426041_3_alg».proof.Proof.Softmax

noncomputable section

namespace Cert.Spec

open Idealize.ShloMosaic Idealize.ShloMosaic.ValueIdx Cert.Softmax

def hSpec (x : (⟨2, ![8192, 512]⟩ : Shape).Idx → EReal) (w : (⟨2, ![512, 256]⟩ : Shape).Idx → EReal) :
    (⟨2, ![8192, 256]⟩ : Shape).Idx → EReal :=
  fun j => ∑ q : Fin 512, x (ix2 (j 0) q) * w (ix2 q (j 1))

def rowOf (A : (⟨2, ![8192, 8192]⟩ : Shape).Idx → EReal) (i : Fin 8192) : Fin 8192 → EReal := fun j => A (ix2 i j)

def colOf (h : (⟨2, ![8192, 256]⟩ : Shape).Idx → EReal) (k : Fin 256) : Fin 8192 → EReal := fun j => h (ix2 j k)

def aggSpec (A : (⟨2, ![8192, 8192]⟩ : Shape).Idx → EReal) (h : (⟨2, ![8192, 256]⟩ : Shape).Idx → EReal)
    (b : (⟨1, ![256]⟩ : Shape).Idx → EReal) : (⟨2, ![8192, 256]⟩ : Shape).Idx → EReal :=
  fun j => Ideal.div (racc (rowOf A (j 0)) (colOf h (j 1)) Finset.univ) (rsum (rowOf A (j 0)) Finset.univ) + b (ix1 (j 1))

def colsBelow (n : ℕ) : Finset (Fin 8192) := Finset.univ.filter fun j => j.val < 1024 * n

def colsOf (n : ℕ) : Finset (Fin 8192) := Finset.univ.filter fun j => 1024 * n ≤ j.val ∧ j.val < 1024 * (n + 1)

theorem colsBelow_zero : colsBelow 0 = ∅ := by
  unfold colsBelow; exact Finset.filter_false_of_mem (fun j _ => by omega)

theorem colsBelow_succ (n : ℕ) : colsBelow (n + 1) = colsBelow n ∪ colsOf n := by
  unfold colsBelow colsOf; ext j; simp only [Finset.mem_filter, Finset.mem_univ, true_and, Finset.mem_union]; omega

theorem colsBelow_disjoint (n : ℕ) : Disjoint (colsBelow n) (colsOf n) := by
  unfold colsBelow colsOf; rw [Finset.disjoint_filter]; intro j _ h1 h2; omega

theorem colsOf_nonempty (n : ℕ) (hn : n < 8) : (colsOf n).Nonempty :=
  ⟨⟨1024 * n, by omega⟩, by unfold colsOf; simp only [Finset.mem_filter, Finset.mem_univ, true_and]; omega⟩

theorem colsBelow_eight : colsBelow 8 = Finset.univ := by
  unfold colsBelow; exact Finset.filter_true_of_mem (fun j _ => by have := j.isLt; omega)

end Cert.Spec

end
-- ==== Proof.KI_Terms.lean ====
import proofs.«410106_j61143154426041_3_alg».proof.KernelIdeal
import proofs.«410106_j61143154426041_3_alg».proof.Proof.Gen.KernelIdeal

noncomputable section

namespace Cert.KernelIdeal.Terms

open Cert.KernelIdeal Cert.KernelIdeal.Gen
open Idealize.ShloMosaic Idealize.SL.Sem

variable {F : FTy → Type} [FloatOps F]

def wrapK (v : (⟨S262144, .i32⟩ : BufTy).Contents (Elt F)) : (⟨S262144, .i32⟩ : BufTy).Contents (Elt F) :=
  select
    (cmpi .slt v (broadcastInDim S262144 ![] bcast_S_S262144 (constantI S_ 32 0#32 : (⟨S_, .i32⟩ : BufTy).Contents (Elt F))))
    (addi v (broadcastInDim S262144 ![] bcast_S_S262144 (constantI S_ 32 8192#32 : (⟨S_, .i32⟩ : BufTy).Contents (Elt F))))
    v

def row0K (e : (⟨S2x262144, .i32⟩ : BufTy).Contents (Elt F)) : (⟨S262144, .i32⟩ : BufTy).Contents (Elt F) :=
  fun i => shapeCast S262144 (extractStridedSlice S1x262144 ![0, 0] e slices_S2x262144_S1x262144_0_0) shapeCasts_S1x262144_S262144 i

def row1K (e : (⟨S2x262144, .i32⟩ : BufTy).Contents (Elt F)) : (⟨S262144, .i32⟩ : BufTy).Contents (Elt F) :=
  fun i => shapeCast S262144 (extractStridedSlice S1x262144 ![1, 0] e slices_S2x262144_S1x262144_1_0) shapeCasts_S1x262144_S262144 i

def srcK (e : (⟨S2x262144, .i32⟩ : BufTy).Contents (Elt F)) : (⟨S262144, .i32⟩ : BufTy).Contents (Elt F) :=
  wrapK (row0K e)

def tgtK (e : (⟨S2x262144, .i32⟩ : BufTy).Contents (Elt F)) : (⟨S262144, .i32⟩ : BufTy).Contents (Elt F) :=
  wrapK (row1K e)

def hs1K (h : (⟨S8192x256, .f32⟩ : BufTy).Contents (Elt F)) (a : (⟨S512x1, .f32⟩ : BufTy).Contents (Elt F)) :
    (⟨S8192, .f32⟩ : BufTy).Contents (Elt F) :=
  fun i => shapeCast S8192
    (Host.dotGeneral dot_S8192x256_S256x1_S8192x1_1_0_0_1_n_n none h (extractStridedSlice S256x1 ![0, 0] a slices_S512x1_S256x1_0_0)
      : (⟨S8192x1, .f32⟩ : BufTy).Contents (Elt F))
    shapeCasts_S8192x1_S8192 i

def hs2K (h : (⟨S8192x256, .f32⟩ : BufTy).Contents (Elt F)) (a : (⟨S512x1, .f32⟩ : BufTy).Contents (Elt F)) :
    (⟨S8192, .f32⟩ : BufTy).Contents (Elt F) :=
  fun i => shapeCast S8192
    (Host.dotGeneral dot_S8192x256_S256x1_S8192x1_1_0_0_1_n_n none h (extractStridedSlice S256x1 ![256, 0] a slices_S512x1_S256x1_256_0)
      : (⟨S8192x1, .f32⟩ : BufTy).Contents (Elt F))
    shapeCasts_S8192x1_S8192 i

def sumK (h : (⟨S8192x256, .f32⟩ : BufTy).Contents (Elt F)) (a : (⟨S512x1, .f32⟩ : BufTy).Contents (Elt F))
    (e : (⟨S2x262144, .i32⟩ : BufTy).Contents (Elt F)) : (⟨S262144, .f32⟩ : BufTy).Contents (Elt F) :=
  addf
    (Host.gather gather_S8192_S262144x1_S262144_n_0_n_n_0_1_1 (hs1K h a)
      (broadcastInDim S262144x1 ![0] bcast_S262144_S262144x1_0 (srcK (F := F) e)))
    (Host.gather gather_S8192_S262144x1_S262144_n_0_n_n_0_1_1 (hs2K h a)
      (broadcastInDim S262144x1 ![0] bcast_S262144_S262144x1_0 (tgtK (F := F) e)))

def leakyK (v : (⟨S262144, .f32⟩ : BufTy).Contents (Elt F)) : (⟨S262144, .f32⟩ : BufTy).Contents (Elt F) :=
  select
    (cmpf .oge v (broadcastInDim S262144 ![] bcast_S_S262144 (constant S_ .f32 0x00000000#32 : (⟨S_, .f32⟩ : BufTy).Contents (Elt F))))
    v
    (mulf (broadcastInDim S262144 ![] bcast_S_S262144 (id (constant S_ .f32 0x3E4CCCCD#32 : (⟨S_, .f32⟩ : BufTy).Contents (Elt F)))) v)

def scoreK (h : (⟨S8192x256, .f32⟩ : BufTy).Contents (Elt F)) (a : (⟨S512x1, .f32⟩ : BufTy).Contents (Elt F))
    (e : (⟨S2x262144, .i32⟩ : BufTy).Contents (Elt F)) : (⟨S262144, .f32⟩ : BufTy).Contents (Elt F) :=
  leakyK (sumK h a e)

def idxK (e : (⟨S2x262144, .i32⟩ : BufTy).Contents (Elt F)) : (⟨S262144x2, .i32⟩ : BufTy).Contents (Elt F) :=
  concatenate S262144x2 1
    [⟨S262144x1, broadcastInDim S262144x1 ![0] bcast_S262144_S262144x1_0 (srcK (F := F) e)⟩,
     ⟨S262144x1, broadcastInDim S262144x1 ![0] bcast_S262144_S262144x1_0 (tgtK (F := F) e)⟩]
    concatenates_S262144x1_S262144x1_S262144x2_d1

def attnK (h : (⟨S8192x256, .f32⟩ : BufTy).Contents (Elt F)) (a : (⟨S512x1, .f32⟩ : BufTy).Contents (Elt F))
    (e : (⟨S2x262144, .i32⟩ : BufTy).Contents (Elt F)) : (⟨S8192x8192, .f32⟩ : BufTy).Contents (Elt F) :=
  Host.scatter scatter_S8192x8192_S262144x2_S262144_n_01_01_1 (fun _ b => b)
    (broadcastInDim S8192x8192 ![] bcast_S_S8192x8192 (constant S_ .f32 0xE0AD78EC#32 : (⟨S_, .f32⟩ : BufTy).Contents (Elt F)))
    (idxK (F := F) e) (scoreK h a e)

def biasK (b : (⟨S256, .f32⟩ : BufTy).Contents (Elt F)) : (⟨S1x256, .f32⟩ : BufTy).Contents (Elt F) :=
  fun i => shapeCast S1x256 b shapeCasts_S256_S1x256 i

end Cert.KernelIdeal.Terms

end
-- ==== Proof.KI_HostValue.lean ====
import proofs.«410106_j61143154426041_3_alg».proof.Proof.KI_Terms
import proofs.«410106_j61143154426041_3_alg».proof.Proof.Gen.KernelIdeal.Regions
import Idealize.ShloMosaic.Lib.StableHlo.Run

noncomputable section

namespace Cert.KernelIdeal.HostValue

open Cert.KernelIdeal Cert.KernelIdeal.Gen Cert.KernelIdeal.Terms
open Idealize.ShloMosaic Idealize.ShloMosaic.TcCoe Idealize.ShloMosaic.StableHlo
open Idealize.SL.Sem

variable {F : FTy → Type} [FloatOps F]

abbrev afterHost (W : Valuation τ sig (Elt F)) : Valuation τ sig (Elt F) :=
  StableHlo.after hostOps1_2 (StableHlo.after hostOps1_1 (StableHlo.after hostOps1 W))

variable (W : Valuation τ sig (Elt F))

theorem s1_v8 : StableHlo.after hostOps1 W (main_v8 : DevRef τ sig) = row0K (F := F) (W main_arg1) := by
  after_results; rfl

theorem s1_v10 : StableHlo.after hostOps1 W (main_v10 : DevRef τ sig) = row1K (F := F) (W main_arg1) := by
  after_results; rfl

theorem s1_v25 : StableHlo.after hostOps1 W (main_v25 : DevRef τ sig) = sumK (W main_v0_0) (W main_arg3) (W main_arg1) := by
  after_results_simp; rfl

theorem s1_cst : StableHlo.after hostOps1 W (main_cst : DevRef τ sig) = (constant S_ .f32 0x3E4CCCCD#32 : (⟨S_, .f32⟩ : BufTy).Contents (Elt F)) := by
  after_results

theorem s1_of (r : Ref sig .tc) (h : r ∉ hostOps1_W) : StableHlo.after hostOps1 W (r : DevRef τ sig) = W r :=
  StableHlo.after_of_writes_sub hostOps1 W hostOps1_writes h

theorem s2_v26 : StableHlo.after hostOps1_1 W (main_v26 : DevRef τ sig)
    = select
        (cmpf .oge (W main_v25) (broadcastInDim S262144 ![] bcast_S_S262144 (constant S_ .f32 0x00000000#32 : (⟨S_, .f32⟩ : BufTy).Contents (Elt F))))
        (W main_v25)
        (mulf (broadcastInDim S262144 ![] bcast_S_S262144 (id (W main_cst))) (W main_v25)) := by
  after_results; rfl

theorem s2_of (r : Ref sig .tc) (h : r ∉ hostOps1_1_W) : StableHlo.after hostOps1_1 W (r : DevRef τ sig) = W r :=
  StableHlo.after_of_writes_sub hostOps1_1 W hostOps1_1_writes h

theorem s3_v41 : StableHlo.after hostOps1_2 W (main_v41 : DevRef τ sig)
    = Host.scatter scatter_S8192x8192_S262144x2_S262144_n_01_01_1 (fun _ b => b)
        (broadcastInDim S8192x8192 ![] bcast_S_S8192x8192 (constant S_ .f32 0xE0AD78EC#32 : (⟨S_, .f32⟩ : BufTy).Contents (Elt F)))
        (concatenate S262144x2 1
          [⟨S262144x1, broadcastInDim S262144x1 ![0] bcast_S262144_S262144x1_0 (wrapK (F := F) (W main_v8))⟩,
           ⟨S262144x1, broadcastInDim S262144x1 ![0] bcast_S262144_S262144x1_0 (wrapK (F := F) (W main_v10))⟩]
          concatenates_S262144x1_S262144x1_S262144x2_d1)
        (W main_v26) := by
  after_results_simp; rfl

theorem s3_v42 : StableHlo.after hostOps1_2 W (main_v42 : DevRef τ sig) = biasK (W main_arg4) := by
  after_results; rfl

theorem s3_of (r : Ref sig .tc) (h : r ∉ hostOps1_2_W) : StableHlo.after hostOps1_2 W (r : DevRef τ sig) = W r :=
  StableHlo.after_of_writes_sub hostOps1_2 W hostOps1_2_writes h

theorem afterHost_of (r : Ref sig .tc) (h1 : r ∉ hostOps1_W) (h2 : r ∉ hostOps1_1_W) (h3 : r ∉ hostOps1_2_W) :
    afterHost W (r : DevRef τ sig) = W r :=
  (s3_of _ r h3).trans <| (s2_of _ r h2).trans <| s1_of W r h1

theorem afterHost_attn : afterHost W (main_v41 : DevRef τ sig) = attnK (W main_v0_0) (W main_arg3) (W main_arg1) := by
  show StableHlo.after hostOps1_2 (StableHlo.after hostOps1_1 (StableHlo.after hostOps1 W)) (main_v41 : DevRef τ sig) = _
  rw [s3_v41, s2_of _ main_v8 (by decide), s2_of _ main_v10 (by decide), s1_v8, s1_v10, s2_v26, s1_v25, s1_cst]
  rfl

theorem afterHost_bias : afterHost W (main_v42 : DevRef τ sig) = biasK (W main_arg4) := by
  show StableHlo.after hostOps1_2 (StableHlo.after hostOps1_1 (StableHlo.after hostOps1 W)) (main_v42 : DevRef τ sig) = _
  rw [s3_v42, s2_of _ main_arg4 (by decide), s1_of _ main_arg4 (by decide)]

theorem afterHost_hbf : afterHost W (main_v0_1 : DevRef τ sig) = W main_v0_1 := afterHost_of W main_v0_1 (by decide) (by decide) (by decide)

end Cert.KernelIdeal.HostValue

end
-- ==== Proof.LibMatmulPlain.lean ====
import Idealize.ShloMosaic.PureOps.Ideal.Laws
import Idealize.ShloMosaic.Lib.ValueIdx
import Idealize.ShloMosaic.Lib.ValueLayout
import Idealize.ShloMosaic.Lib.StackMember

namespace Cert.LibMatmulPlain

open Idealize.ShloMosaic Idealize.ShloMosaic.ValueIdx
open scoped BigOperators

-- accumulating into zero adds nothing, so the entry is the plain sum of products
theorem matmul_plain_apply {M K N : ℕ} {φ₁ φ₂ : FTy} (l : FVec Ideal ⟨2, ![M, K]⟩ φ₁) (r : FVec Ideal ⟨2, ![K, N]⟩ φ₂)
    (i : Fin M) (j : Fin N) :
    matmul (DotDims.plain M K N) none l r (constant ⟨2, ![M, N]⟩ .f32 0x00000000#32) (ix2 i j)
      = ∑ q : Fin K, l (ix2 i q) * r (ix2 q j) := by
  rw [matmul_zero_eq_dotGeneral]
  exact StackMember.dotGeneral_plain_apply none l r i j

end Cert.LibMatmulPlain
-- ==== Proof.R0Value.lean ====
import proofs.«410106_j61143154426041_3_alg».proof.Proof.KI_R0Body
import proofs.«410106_j61143154426041_3_alg».proof.Proof.Spec
import proofs.«410106_j61143154426041_3_alg».proof.Proof.LibMatmulPlain
import Idealize.ShloMosaic.Lib.Pipeline.Value
import Idealize.ShloMosaic.Lib.ValueIdx

noncomputable section

namespace Cert.KernelIdeal.R0Value

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

theorem pay1_apply (x0 : Vec Ideal S1024x512 .f32) (x1 : Vec Ideal S512x256 .f32) (p : Fin 1024) (k : Fin 256) :
    (k0_pay1 x0 x1 : FVec Ideal S1024x256 .f32) (ix2 p k) = ∑ q : Fin 512, x0 (ix2 p q) * x1 (ix2 q k) := by
  unfold k0_pay1
  exact Cert.LibMatmulPlain.matmul_plain_apply (M := 1024) (K := 512) (N := 256)
    (truncf .bf16 x0 bitsLt_bf16_f32) (truncf .bf16 x1 bitsLt_bf16_f32) p k

theorem pay2_apply (x0 : Vec Ideal S1024x512 .f32) (x1 : Vec Ideal S512x256 .f32) (p : Fin 1024) (k : Fin 256) :
    (k0_pay2 x0 x1 : FVec Ideal S1024x256 .bf16) (ix2 p k) = ∑ q : Fin 512, x0 (ix2 p q) * x1 (ix2 q k) := by
  unfold k0_pay2
  exact pay1_apply x0 x1 p k

theorem sum_rows (X : S8192x512.Idx → EReal) (W : S512x256.Idx → EReal)
    (x0 : Vec Ideal S1024x512 .f32) (x1 : Vec Ideal S512x256 .f32)
    (p : Fin 1024) (k : Fin 256) (i : S8192x256.Idx)
    (hx0 : ∀ q : Fin 512, x0 (ix2 p q) = X (ix2 (i 0) q))
    (hx1 : ∀ q : Fin 512, x1 (ix2 q k) = W (ix2 q (i 1))) :
    ∑ q : Fin 512, x0 (ix2 p q) * x1 (ix2 q k) = Cert.Spec.hSpec X W i := by
  unfold Cert.Spec.hSpec
  exact Finset.sum_congr rfl fun q _ => by rw [hx0 q, hx1 q]

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem iblk0_0_apply (c : Dev nD) (t : Fin cfg0.N) (y : S1024x512.Idx) (i : S8192x512.Idx)
    (h0 : (i 0).val = 1024 * t.val + (y 0).val) (h1 : (i 1).val = (y 1).val) :
    (Gen0.iblk0 V c 0 t : Vec Ideal S1024x512 .f32) y = (V c main_arg0 : S8192x512.Idx → EReal) i := by
  obtain ⟨e0, e1, -⟩ := idx_facts t
  show V c main_arg0 (((cfg0.win 0).blk t).view.emb y) = V c main_arg0 i
  congr 1
  funext a
  apply Fin.ext
  match a with
  | ⟨0, _⟩ => show win0_0.index t (0 : Fin 2) * 1024 + 1 * (y 0).val = (i 0).val; rw [e0, h0]; omega
  | ⟨1, _⟩ => show win0_0.index t (1 : Fin 2) * 512 + 1 * (y 1).val = (i 1).val; rw [e1, h1]; omega

theorem iblk0_1_apply (c : Dev nD) (t : Fin cfg0.N) (y : S512x256.Idx) (i : S512x256.Idx)
    (h0 : (i 0).val = (y 0).val) (h1 : (i 1).val = (y 1).val) :
    (Gen0.iblk0 V c 1 t : Vec Ideal S512x256 .f32) y = (V c main_arg2 : S512x256.Idx → EReal) i := by
  obtain ⟨-, -, e2, e3, -⟩ := idx_facts t
  show V c main_arg2 (((cfg0.win 1).blk t).view.emb y) = V c main_arg2 i
  congr 1
  funext a
  apply Fin.ext
  match a with
  | ⟨0, _⟩ => show win0_1.index t (0 : Fin 2) * 512 + 1 * (y 0).val = (i 0).val; rw [e2, h0]; omega
  | ⟨1, _⟩ => show win0_1.index t (1 : Fin 2) * 256 + 1 * (y 1).val = (i 1).val; rw [e3, h1]; omega

theorem flushed2_eq (c : Dev nD) (t : Fin cfg0.N) :
    (Gen0.dat0 V c).flushed 2 t
      = ((cfg0.win 2).blk t).view.read (Elt Ideal) (Cert.Spec.hSpec (V c main_arg0) (V c main_arg2)) := by
  show (cfg0.win 2).cut (grid0.coords t) ((Gen0.dat0 V c).after 2 t) = _
  rw [Gen0.after0_2]
  unfold Gen0.out0_2
  rw [View.canon_unit_zero hz]
  simp only [View.ld_unit_zero (S := S1024x512) hz, View.ld_unit_zero (S := S512x256) hz]
  obtain ⟨-, -, -, -, e4, e5, -⟩ := idx_facts t
  funext j
  obtain ⟨p, k, rfl⟩ : ∃ (p : Fin 1024) (k : Fin 256), j = ix2 p k := ⟨j 0, j 1, eq_ix2 j⟩
  show (k0_pay1 (Gen0.iblk0 V c 0 t) (Gen0.iblk0 V c 1 t) : FVec Ideal S1024x256 .f32) (ix2 p k)
    = Cert.Spec.hSpec (V c main_arg0) (V c main_arg2) (((cfg0.win 2).blk t).view.emb (ix2 p k))
  have r0 : ((((cfg0.win 2).blk t).view.emb (ix2 p k) : S8192x256.Idx) 0).val = 1024 * t.val + p.val := by
    show win0_2.index t (0 : Fin 2) * 1024 + 1 * p.val = _
    rw [e4]; omega
  have r1 : ((((cfg0.win 2).blk t).view.emb (ix2 p k) : S8192x256.Idx) 1).val = k.val := by
    show win0_2.index t (1 : Fin 2) * 256 + 1 * k.val = _
    rw [e5]; omega
  refine (pay1_apply (Gen0.iblk0 V c 0 t) (Gen0.iblk0 V c 1 t) p k).trans ?_
  exact sum_rows (V c main_arg0) (V c main_arg2) (Gen0.iblk0 V c 0 t) (Gen0.iblk0 V c 1 t) p k _
    (fun q => iblk0_0_apply V c t (ix2 p q) _ r0 rfl) (fun q => iblk0_1_apply V c t (ix2 q k) _ rfl r1)

theorem flushed3_eq (c : Dev nD) (t : Fin cfg0.N) :
    (Gen0.dat0 V c).flushed 3 t
      = ((cfg0.win 3).blk t).view.read (Elt Ideal) (Cert.Spec.hSpec (V c main_arg0) (V c main_arg2)) := by
  show (cfg0.win 3).cut (grid0.coords t) ((Gen0.dat0 V c).after 3 t) = _
  rw [Gen0.after0_3]
  unfold Gen0.out0_3
  rw [View.canon_unit_zero hz]
  simp only [View.ld_unit_zero (S := S1024x512) hz, View.ld_unit_zero (S := S512x256) hz]
  obtain ⟨-, -, -, -, -, -, e6, e7⟩ := idx_facts t
  funext j
  obtain ⟨p, k, rfl⟩ : ∃ (p : Fin 1024) (k : Fin 256), j = ix2 p k := ⟨j 0, j 1, eq_ix2 j⟩
  show (k0_pay2 (Gen0.iblk0 V c 0 t) (Gen0.iblk0 V c 1 t) : FVec Ideal S1024x256 .bf16) (ix2 p k)
    = Cert.Spec.hSpec (V c main_arg0) (V c main_arg2) (((cfg0.win 3).blk t).view.emb (ix2 p k))
  have r0 : ((((cfg0.win 3).blk t).view.emb (ix2 p k) : S8192x256.Idx) 0).val = 1024 * t.val + p.val := by
    show win0_3.index t (0 : Fin 2) * 1024 + 1 * p.val = _
    rw [e6]; omega
  have r1 : ((((cfg0.win 3).blk t).view.emb (ix2 p k) : S8192x256.Idx) 1).val = k.val := by
    show win0_3.index t (1 : Fin 2) * 256 + 1 * k.val = _
    rw [e7]; omega
  refine (pay2_apply (Gen0.iblk0 V c 0 t) (Gen0.iblk0 V c 1 t) p k).trans ?_
  exact sum_rows (V c main_arg0) (V c main_arg2) (Gen0.iblk0 V c 0 t) (Gen0.iblk0 V c 1 t) p k _
    (fun q => iblk0_0_apply V c t (ix2 p q) _ r0 rfl) (fun q => iblk0_1_apply V c t (ix2 q k) _ rfl r1)

theorem mem_blk2 (t : Fin cfg0.N) (i : S8192x256.Idx) :
    i ∈ ((cfg0.win 2).blk t).view.set ↔ ∀ a : Fin 2, win0_2.index t a * S1024x256.size a ≤ (i a).val
      ∧ (i a).val < win0_2.index t a * S1024x256.size a + S1024x256.size a := by
  show i ∈ ((View.whole main_v0_0).slice (win0_2.rect t)).set ↔ _
  rw [View.set_slice_whole, Rect.mem_set_unit]
  exact Iff.rfl

theorem mem_blk3 (t : Fin cfg0.N) (i : S8192x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v0_1).slice (win0_3.rect t)).set ↔ _
  rw [View.set_slice_whole, Rect.mem_set_unit]
  exact Iff.rfl

theorem cover2 (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨-, -, -, -, e4, e5, -⟩ := idx_facts t
  refine ⟨t, flush0_2 t, ?_⟩
  rw [mem_blk2]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 256 ≤ (i 1).val ∧ (i 1).val < win0_2.index t (1 : Fin 2) * 256 + 256
    rw [e5]; omega

theorem cover3 (i : S8192x256.Idx) :
    ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨-, -, -, -, -, -, e6, e7⟩ := idx_facts t
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + 1024
    rw [e6]; omega
  | ⟨1, _⟩ =>
    show win0_3.index t (1 : Fin 2) * 256 ≤ (i 1).val ∧ (i 1).val < win0_3.index t (1 : Fin 2) * 256 + 256
    rw [e7]; omega

theorem h32 (c : Dev nD) :
    (Gen0.dat0 (F := Ideal) V c).arrAt 2 cfg0.N = Cert.Spec.hSpec (V c main_arg0) (V c main_arg2) :=
  (Gen0.dat0 V c).arrAt_eq_of_cover 2 (Cert.Spec.hSpec (V c main_arg0) (V c main_arg2))
    (fun t _ => flushed2_eq V c t) cover2

theorem hbf (c : Dev nD) :
    (Gen0.dat0 (F := Ideal) V c).arrAt 3 cfg0.N = Cert.Spec.hSpec (V c main_arg0) (V c main_arg2) :=
  (Gen0.dat0 V c).arrAt_eq_of_cover 3 (Cert.Spec.hSpec (V c main_arg0) (V c main_arg2))
    (fun t _ => flushed3_eq V c t) cover3

end Cert.KernelIdeal.R0Value

end
-- ==== Proof.LibKeepdims.lean ====
import Idealize.ShloMosaic.Lib.Pipeline.Value
import Idealize.ShloMosaic.Lib.ValueIdx

namespace Cert.LibKeepdims

open Idealize.ShloMosaic Idealize.ShloMosaic.ValueIdx

variable {α : Type} {a b : ℕ}

theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

theorem broadcastTo_a1_ab_apply (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) :=
  broadcastTo_apply v h (ix2 i j) (ix2 i (0 : Fin 1)) fun ax => by
    match ax with
    | ⟨0, _⟩ =>
      show i.val = if a = 1 then 0 else i.val
      split <;> omega
    | ⟨1, _⟩ => rfl

end Cert.LibKeepdims
-- ==== Proof.R1Steps.lean ====
import proofs.«410106_j61143154426041_3_alg».proof.Proof.Gen.KernelIdeal.Skeleton
import proofs.«410106_j61143154426041_3_alg».proof.Proof.LibKeepdims
import proofs.«410106_j61143154426041_3_alg».proof.Proof.LibMatmulPlain
import Idealize.ShloMosaic.PureOps.Ideal.Laws
import Idealize.ShloMosaic.Lib.ValueIdx
import Idealize.ShloMosaic.Lib.ValueLayout
import Idealize.ShloMosaic.Lib.Pipeline.Value
import Mathlib.Order.CompleteLattice.Finset

noncomputable section

namespace Cert.KernelIdeal.R1Steps

open Cert.KernelIdeal Cert.KernelIdeal.Gen
open Idealize.ShloMosaic Idealize.ShloMosaic.ValueIdx
open scoped BigOperators

theorem ofBits_neg_inf_f32 : Ideal.ofBits .f32 0xFF800000#32 = ⊥ := by simp [Ideal.ofBits, Ideal.ieee]

theorem fold_max_bot_eq_sup {ι : Type} (s : Finset ι) (f : ι → EReal) : s.fold max ⊥ f = s.sup f := rfl

theorem lift_row (h : S1024x1024.Reduces [1] S1024) (r q : Fin 1024) : h.lift (ix1 r) q = ix2 r q := by
  funext c
  match c with
  | ⟨0, _⟩ => exact Fin.ext rfl
  | ⟨1, _⟩ => exact Fin.ext rfl

theorem pay1_eq (v : FVec Ideal S1024x256 .f32) : k1_pay1 (F := Ideal) v = v := shapeCast_self v _

theorem pay2_eq (v : FVec Ideal S1024x1 .f32) : k1_pay2 (F := Ideal) v = v := shapeCast_self v _

theorem pay7_eq (v : Vec Ideal S1024x1024 .f32) : k1_pay7 (F := Ideal) v = v := shapeCast_self v _

theorem pay4_apply (j : S1024x1.Idx) : k1_pay4 (F := Ideal) j = (⊥ : EReal) := by
  have e : k1_pay4 (F := Ideal) = broadcast S1024x1 (Ideal.ofBits .f32 0xFF800000#32) := shapeCast_self _ _
  rw [e]
  exact ofBits_neg_inf_f32

theorem pay5_apply (j : S1024x1.Idx) : k1_pay5 (F := Ideal) j = (0 : EReal) := by
  have e : k1_pay5 (F := Ideal) = broadcast S1024x1 (Ideal.ofBits .f32 0x00000000#32) := shapeCast_self _ _
  rw [e]
  exact Ideal.ofBits_zero_f32

theorem pay6_apply (j : S1024x256.Idx) : k1_pay6 (F := Ideal) j = (0 : EReal) := by
  have e : k1_pay6 (F := Ideal) = broadcast S1024x256 (Ideal.ofBits .f32 0x00000000#32) := shapeCast_self _ _
  rw [e]
  exact Ideal.ofBits_zero_f32

theorem pay8_apply (x0 : Vec Ideal S1024x1024 .f32) (m0 : Vec Ideal S1024x1 .f32) (r : Fin 1024) :
    k1_pay8 (F := Ideal) x0 m0 (ix2 r (0 : Fin 1))
      = max (m0 (ix2 r (0 : Fin 1))) (Finset.univ.sup fun q : Fin 1024 => x0 (ix2 r q)) := by
  refine congrArg (max (m0 (ix2 r (0 : Fin 1)))) ?_
  refine (LibKeepdims.shapeCast_a_a1_apply _ _ r 0).trans ?_
  refine (Ideal.multiReduction_maximumf_single _ _ _ _ _ (ix1 r)).trans ?_
  have hb : FloatOps.ofBits (F := Ideal) .f32 0xFF800000#32 = (⊥ : EReal) := ofBits_neg_inf_f32
  rw [hb]
  refine (fold_max_bot_eq_sup _ _).trans ?_
  refine congrArg (Finset.sup Finset.univ) (funext fun q => ?_)
  exact (congrFun (pay7_eq x0) _).trans (congrArg x0 (lift_row _ r q))

theorem pay9_apply (x0 : Vec Ideal S1024x1024 .f32) (m0 m0' : Vec Ideal S1024x1 .f32) (r : Fin 1024) :
    k1_pay9 (F := Ideal) x0 m0 m0' (ix2 r (0 : Fin 1))
      = Ideal.exp (m0' (ix2 r (0 : Fin 1)) - k1_pay8 (F := Ideal) x0 m0 (ix2 r (0 : Fin 1))) := rfl

theorem pay10_apply (x0 : Vec Ideal S1024x1024 .f32) (m0 : Vec Ideal S1024x1 .f32) (r q : Fin 1024) :
    k1_pay10 (F := Ideal) x0 m0 (ix2 r q)
      = Ideal.exp (x0 (ix2 r q) - k1_pay8 (F := Ideal) x0 m0 (ix2 r (0 : Fin 1))) := by
  refine congrArg Ideal.exp (congrArg₂ (· - ·) ?_ ?_)
  · exact congrFun (pay7_eq x0) _
  · exact LibKeepdims.broadcastTo_a1_ab_apply _ _ r q

theorem pay11_apply (x0 : Vec Ideal S1024x1024 .f32) (m0 m0' l0 : Vec Ideal S1024x1 .f32) (r : Fin 1024) :
    k1_pay11 (F := Ideal) x0 m0 m0' l0 (ix2 r (0 : Fin 1))
      = k1_pay9 (F := Ideal) x0 m0 m0' (ix2 r (0 : Fin 1)) * l0 (ix2 r (0 : Fin 1))
        + ∑ q : Fin 1024, k1_pay10 (F := Ideal) x0 m0 (ix2 r q) := by
  have e : k1_pay11 (F := Ideal) x0 m0 m0' l0 = _ := shapeCast_self _ _
  refine (congrFun e _).trans ?_
  refine congrArg (k1_pay9 (F := Ideal) x0 m0 m0' (ix2 r (0 : Fin 1)) * l0 (ix2 r (0 : Fin 1)) + ·) ?_
  refine (LibKeepdims.shapeCast_a_a1_apply _ _ r 0).trans ?_
  refine (Ideal.multiReduction_add_single _ _ _ _ _ (ix1 r)).trans ?_
  exact Finset.sum_congr rfl fun q _ => congrArg (k1_pay10 (F := Ideal) x0 m0) (lift_row _ r q)

theorem pay12_apply (x0 : Vec Ideal S1024x1024 .f32) (m0 m0' : Vec Ideal S1024x1 .f32) (hb : Vec Ideal S1024x256 .bf16)
    (a0 : Vec Ideal S1024x256 .f32) (r : Fin 1024) (k : Fin 256) :
    k1_pay12 (F := Ideal) x0 m0 m0' hb a0 (ix2 r k)
      = k1_pay9 (F := Ideal) x0 m0 m0' (ix2 r (0 : Fin 1)) * a0 (ix2 r k)
        + ∑ q : Fin 1024, k1_pay10 (F := Ideal) x0 m0 (ix2 r q) * hb (ix2 q k) := by
  refine congrArg₂ (· + ·) ?_ ?_
  · exact congrArg (· * a0 (ix2 r k)) (LibKeepdims.broadcastTo_a1_ab_apply _ _ r k)
  · refine (LibMatmulPlain.matmul_plain_apply (M := 1024) (K := 1024) (N := 256) (φ₁ := .bf16) (φ₂ := .bf16) _ _ r k).trans ?_
    exact Finset.sum_congr rfl fun q _ =>
      congrArg (k1_pay10 (F := Ideal) x0 m0 (ix2 r q) * ·) (congrFun (shapeCast_self hb _) (ix2 q k))

theorem pay3_apply (acc : Vec Ideal S1024x256 .f32) (l : Vec Ideal S1024x1 .f32) (bias : Vec Ideal S1x256 .f32)
    (r : Fin 1024) (k : Fin 256) :
    k1_pay3 (F := Ideal) acc l bias (ix2 r k)
      = Ideal.div (acc (ix2 r k)) (l (ix2 r (0 : Fin 1))) + bias (ix2 (0 : Fin 1) k) := by
  refine congrArg₂ (· + ·) ?_ ?_
  · exact congrArg (Ideal.div (acc (ix2 r k))) (LibKeepdims.broadcastTo_a1_ab_apply _ _ r k)
  · refine (broadcastTo_1b_ab_apply _ _ r k).trans ?_
    exact congrFun (shapeCast_self bias _) _

end Cert.KernelIdeal.R1Steps

end
-- ==== Proof.R1Idx.lean ====
import Mathlib.Data.Fin.Basic
import Mathlib.Logic.Function.Basic
import Mathlib.Tactic.Common

namespace Cert.KernelIdeal.R1Value

def rowIx (i : ℕ) (hi : i < 8) (r : Fin 1024) : Fin 8192 := ⟨1024 * i + r.val, by have := r.isLt; omega⟩

def colIx (n : ℕ) (hn : n < 8) (q : Fin 1024) : Fin 8192 := ⟨1024 * n + q.val, by have := q.isLt; omega⟩

theorem colIx_injective (n : ℕ) (hn : n < 8) : Function.Injective (colIx n hn) := fun q q' e => by
  have := congrArg Fin.val e
  exact Fin.ext (by simp only [colIx] at this; omega)

end Cert.KernelIdeal.R1Value
-- ==== Proof.R1ValueA.lean ====
import proofs.«410106_j61143154426041_3_alg».proof.Proof.Gen.KernelIdeal.Skeleton
import proofs.«410106_j61143154426041_3_alg».proof.Proof.Spec
import proofs.«410106_j61143154426041_3_alg».proof.Proof.Softmax
import proofs.«410106_j61143154426041_3_alg».proof.Proof.R1Steps
import proofs.«410106_j61143154426041_3_alg».proof.Proof.R1Idx
import Idealize.ShloMosaic.Lib.ValueIdx
import Mathlib.Data.Finset.Lattice.Fold

noncomputable section

namespace Cert.KernelIdeal.R1Value

open Idealize.ShloMosaic Idealize.ShloMosaic.ValueIdx Cert.KernelIdeal.Gen Cert.Softmax Cert.Spec Cert.KernelIdeal.R1Steps

theorem colsOf_eq_image (n : ℕ) (hn : n < 8) : colsOf n = Finset.univ.image (colIx n hn) := by
  ext j
  simp only [colsOf, Finset.mem_filter, Finset.mem_univ, true_and, Finset.mem_image]
  constructor
  · intro h
    exact ⟨⟨j.val - 1024 * n, by omega⟩, Fin.ext (by simp only [colIx]; omega)⟩
  · rintro ⟨q, rfl⟩
    have := q.isLt
    simp only [colIx]; omega

theorem sup_block (a : Fin 8192 → EReal) (n : ℕ) (hn : n < 8) :
    (Finset.univ.sup fun q : Fin 1024 => a (colIx n hn q)) = rmax a (colsOf n) := by
  rw [rmax, colsOf_eq_image n hn, Finset.sup_image]; rfl

theorem sum_block (f : Fin 8192 → EReal) (n : ℕ) (hn : n < 8) :
    ∑ q : Fin 1024, f (colIx n hn q) = ∑ j ∈ colsOf n, f j := by
  rw [colsOf_eq_image n hn, Finset.sum_image (fun q _ q' _ e => colIx_injective n hn e)]

structure Inv (A : S8192x8192.Idx → EReal) (H : S8192x256.Idx → EReal) (i : ℕ) (hi : i < 8) (n : ℕ)
    (m l : Vec Ideal S1024x1 .f32) (a : Vec Ideal S1024x256 .f32) : Prop where
  hm : ∀ r : Fin 1024, m (ix2 r 0) = rmax (rowOf A (rowIx i hi r)) (colsBelow n)
  hl : ∀ r : Fin 1024, l (ix2 r 0) = rsum (rowOf A (rowIx i hi r)) (colsBelow n)
  ha : ∀ (r : Fin 1024) (k : Fin 256), a (ix2 r k) = racc (rowOf A (rowIx i hi r)) (colOf H k) (colsBelow n)

variable {A : S8192x8192.Idx → EReal} {H : S8192x256.Idx → EReal}

theorem Inv.cast {i i' : ℕ} {hi : i < 8} {hi' : i' < 8} {n n' : ℕ} {m l : Vec Ideal S1024x1 .f32} {a : Vec Ideal S1024x256 .f32}
    (h : Inv A H i hi n m l a) (ei : i = i') (en : n = n') : Inv A H i' hi' n' m l a := by
  subst ei; subst en; exact h

theorem Inv.init (i : ℕ) (hi : i < 8) : Inv A H i hi 0 (k1_pay4 (F := Ideal)) (k1_pay5 (F := Ideal)) (k1_pay6 (F := Ideal)) where
  hm r := by rw [pay4_apply, colsBelow_zero, rmax_empty]
  hl r := by rw [pay5_apply, colsBelow_zero, rsum_empty]
  ha r k := by rw [pay6_apply, colsBelow_zero, racc_empty]

theorem step_max (i : ℕ) (hi : i < 8) (n : ℕ) (hn : n < 8) {m : Vec Ideal S1024x1 .f32}
    (hm : ∀ r : Fin 1024, m (ix2 r 0) = rmax (rowOf A (rowIx i hi r)) (colsBelow n))
    (x0 : Vec Ideal S1024x1024 .f32) (hx : ∀ r q : Fin 1024, x0 (ix2 r q) = A (ix2 (rowIx i hi r) (colIx n hn q))) (r : Fin 1024) :
    k1_pay8 x0 m (ix2 r 0) = rmax (rowOf A (rowIx i hi r)) (colsBelow (n + 1)) := by
  rw [pay8_apply, hm r, colsBelow_succ, ← rmax_union]
  refine congrArg (max _) ?_
  rw [← sup_block (rowOf A (rowIx i hi r)) n hn]
  exact congrArg _ (funext fun q => hx r q)

theorem Inv.step (hA : ∀ j, ∃ r : ℝ, A j = (r : EReal)) (hH : ∀ j, ∃ r : ℝ, H j = (r : EReal))
    (i : ℕ) (hi : i < 8) (n : ℕ) (hn : n < 8) {m l : Vec Ideal S1024x1 .f32} {a : Vec Ideal S1024x256 .f32}
    (hinv : Inv A H i hi n m l a) (x0 : Vec Ideal S1024x1024 .f32) (hb : Vec Ideal S1024x256 .bf16)
    (hx : ∀ r q : Fin 1024, x0 (ix2 r q) = A (ix2 (rowIx i hi r) (colIx n hn q)))
    (hh : ∀ (q : Fin 1024) (k : Fin 256), hb (ix2 q k) = H (ix2 (colIx n hn q) k)) :
    Inv A H i hi (n + 1) (k1_pay2 (k1_pay8 x0 m)) (k1_pay11 x0 m m l) (k1_pay1 (k1_pay12 x0 m m hb a)) where
  hm r := by rw [pay2_eq]; exact step_max i hi n hn hinv.hm x0 hx r
  hl r := by
    have hrow : Real' (rowOf A (rowIx i hi r)) := fun j => hA _
    rw [pay11_apply, pay9_apply, step_max i hi n hn hinv.hm x0 hx r, hinv.hm r, hinv.hl r]
    have e : ∀ q : Fin 1024, k1_pay10 x0 m (ix2 r q)
        = Ideal.exp (rowOf A (rowIx i hi r) (colIx n hn q) - rmax (rowOf A (rowIx i hi r)) (colsBelow (n + 1))) := fun q => by
      rw [pay10_apply, step_max i hi n hn hinv.hm x0 hx r, hx r q]; rfl
    rw [Finset.sum_congr rfl (fun q _ => e q),
      sum_block (fun j => Ideal.exp (rowOf A (rowIx i hi r) j - rmax (rowOf A (rowIx i hi r)) (colsBelow (n + 1)))) n hn, colsBelow_succ]
    exact rsum_step _ hrow _ _ (colsBelow_disjoint n) (colsOf_nonempty n hn)
  ha r k := by
    have hrow : Real' (rowOf A (rowIx i hi r)) := fun j => hA _
    have hcol : Real' (colOf H k) := fun j => hH _
    rw [pay1_eq, pay12_apply, pay9_apply, step_max i hi n hn hinv.hm x0 hx r, hinv.hm r, hinv.ha r k]
    have e : ∀ q : Fin 1024, k1_pay10 x0 m (ix2 r q) * hb (ix2 q k)
        = Ideal.exp (rowOf A (rowIx i hi r) (colIx n hn q) - rmax (rowOf A (rowIx i hi r)) (colsBelow (n + 1))) * colOf H k (colIx n hn q) := fun q => by
      rw [pay10_apply, step_max i hi n hn hinv.hm x0 hx r, hx r q, hh q k]; rfl
    rw [Finset.sum_congr rfl (fun q _ => e q),
      sum_block (fun j => Ideal.exp (rowOf A (rowIx i hi r) j - rmax (rowOf A (rowIx i hi r)) (colsBelow (n + 1))) * colOf H k j) n hn, colsBelow_succ]
    exact racc_step _ _ hrow hcol _ _ (colsBelow_disjoint n) (colsOf_nonempty n hn)

theorem Inv.out (i : ℕ) (hi : i < 8) {m l : Vec Ideal S1024x1 .f32} {a : Vec Ideal S1024x256 .f32}
    (hinv : Inv A H i hi 8 m l a) (bias : Vec Ideal S1x256 .f32) (b : S256.Idx → EReal)
    (hbias : ∀ k : Fin 256, bias (ix2 0 k) = b (ix1 k)) (r : Fin 1024) (k : Fin 256) :
    k1_pay3 a l bias (ix2 r k) = aggSpec A H b (ix2 (rowIx i hi r) k) := by
  rw [pay3_apply, hinv.ha r k, hinv.hl r, hbias k, colsBelow_eight]
  rfl

end Cert.KernelIdeal.R1Value

end
-- ==== Proof.R1ValueB.lean ====
import proofs.«410106_j61143154426041_3_alg».proof.Proof.Gen.KernelIdeal.Launch
import proofs.«410106_j61143154426041_3_alg».proof.Proof.Gen.KernelIdeal.Points
import proofs.«410106_j61143154426041_3_alg».proof.Proof.Spec
import proofs.«410106_j61143154426041_3_alg».proof.Proof.R1Idx
import Idealize.ShloMosaic.Lib.Pipeline.Value
import Idealize.ShloMosaic.Lib.Pipeline.FrameBody
import Idealize.ShloMosaic.Lib.ValueIdx

set_option maxRecDepth 16384

noncomputable section

namespace Cert.KernelIdeal.R1Value

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

abbrev Aarr (c : Dev nD) : S8192x8192.Idx → EReal := V c main_v41
abbrev Harr (c : Dev nD) : S8192x256.Idx → EReal := V c main_v0_1
abbrev Barr (c : Dev nD) : S1x256.Idx → EReal := V c main_v42

abbrev xblk (c : Dev nD) (t : Fin cfg1.N) : Vec Ideal S1024x1024 .f32 :=
  ((cfg1.win 0).blk t).view.read (Elt Ideal) (V c (Pipeline.arrRef spec1 0))
abbrev hres (c : Dev nD) (t : Fin cfg1.N) : Vec Ideal S8192x256 .bf16 :=
  ((cfg1.win 1).blk t).view.read (Elt Ideal) (V c (Pipeline.arrRef spec1 1))
abbrev bblk (c : Dev nD) (t : Fin cfg1.N) : Vec Ideal S1x256 .f32 :=
  ((cfg1.win 2).blk t).view.read (Elt Ideal) (V c (Pipeline.arrRef spec1 2))

theorem N1 : cfg1.N = 64 := N_1

theorem idx_facts : ∀ t : Fin cfg1.N, win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

theorem coord1 : ∀ t : Fin cfg1.N, ((grid1.coords t) 1).val = t.val % 8 :=
  (by decide +kernel : ∀ t : Fin grid1.N, _)

theorem lt64 (t : Fin cfg1.N) : t.val < 64 := lt_of_lt_of_eq t.isLt N1
theorem div8_lt (t : Fin cfg1.N) : t.val / 8 < 8 := by have := lt64 t; omega
theorem mod8_lt (t : Fin cfg1.N) : t.val % 8 < 8 := Nat.mod_lt _ (by decide)

theorem xblk_apply (c : Dev nD) (t : Fin cfg1.N) (r q : Fin 1024) :
    xblk V c t (ix2 r q) = Aarr V c (ix2 (rowIx (t.val / 8) (div8_lt t) r) (colIx (t.val % 8) (mod8_lt t) q)) := by
  obtain ⟨e0, e1, -⟩ := idx_facts t
  show V c main_v41 (((cfg1.win 0).blk t).view.emb (ix2 r q)) = V c main_v41 _
  refine congrArg (V c main_v41) (funext fun a => Fin.ext ?_)
  match a with
  | ⟨0, _⟩ => show win1_0.index t (0 : Fin 2) * 1024 + 1 * r.val = 1024 * (t.val / 8) + r.val; omega
  | ⟨1, _⟩ => show win1_0.index t (1 : Fin 2) * 1024 + 1 * q.val = 1024 * (t.val % 8) + q.val; omega

theorem hres_apply (c : Dev nD) (t : Fin cfg1.N) (j : Fin 8192) (k : Fin 256) :
    hres V c t (ix2 j k) = Harr V c (ix2 j k) := by
  obtain ⟨-, -, e0, e1, -⟩ := idx_facts t
  show V c main_v0_1 (((cfg1.win 1).blk t).view.emb (ix2 j k)) = V c main_v0_1 _
  refine congrArg (V c main_v0_1) (funext fun a => Fin.ext ?_)
  match a with
  | ⟨0, _⟩ => show win1_1.index t (0 : Fin 2) * 8192 + 1 * j.val = j.val; omega
  | ⟨1, _⟩ => show win1_1.index t (1 : Fin 2) * 256 + 1 * k.val = k.val; omega

theorem bblk_apply (c : Dev nD) (t : Fin cfg1.N) (k : Fin 256) :
    bblk V c t (ix2 0 k) = Barr V c (ix2 0 k) := by
  obtain ⟨-, -, -, -, e0, e1, -⟩ := idx_facts t
  show V c main_v42 (((cfg1.win 2).blk t).view.emb (ix2 0 k)) = V c main_v42 _
  refine congrArg (V c main_v42) (funext fun a => Fin.ext ?_)
  match a with
  | ⟨0, _⟩ => show win1_2.index t (0 : Fin 2) * 1 + 1 * 0 = 0; omega
  | ⟨1, _⟩ => show win1_2.index t (1 : Fin 2) * 256 + 1 * k.val = k.val; omega

theorem hblk_apply (t : Fin cfg1.N) (x1 : Vec Ideal S8192x256 .bf16) (q : Fin 1024) (k : Fin 256) :
    (View.ld x1 (Rect.unit (s := S8192x256) (k1_off1 (grid1.coords t)) S1024x256.size (k1_off1_inb (grid1.coords t))) : S1024x256.Idx → EReal) (ix2 q k)
      = x1 (ix2 (colIx (t.val % 8) (mod8_lt t) q) k) := by
  have e := k1_off1_eq (grid1.coords t)
  have e1 := coord1 t
  show x1 _ = x1 _
  refine congrArg x1 (funext fun a => Fin.ext ?_)
  match a with
  | ⟨0, _⟩ => show k1_off1 (grid1.coords t) 0 + 1 * q.val = 1024 * (t.val % 8) + q.val; rw [e, ← e1]; show 1024 * _ + 1 * q.val = _; omega
  | ⟨1, _⟩ => show k1_off1 (grid1.coords t) 1 + 1 * k.val = k.val; rw [e]; show 0 + 1 * k.val = _; omega

end Cert.KernelIdeal.R1Value

end
-- ==== Proof.KI_R1CoverOf.lean ====
import proofs.«410106_j61143154426041_3_alg».proof.Proof.Gen.KernelIdeal.Launch
import proofs.«410106_j61143154426041_3_alg».proof.Proof.Gen.KernelIdeal.Points
import proofs.«410106_j61143154426041_3_alg».proof.Proof.R1Idx
import Idealize.ShloMosaic.Lib.Pipeline.Value
import Idealize.ShloMosaic.Lib.ValueIdx

noncomputable section

namespace Cert.KernelIdeal.Gen1

open Cert.KernelIdeal Cert.KernelIdeal.Gen Cert.KernelIdeal.R1Value
open Idealize.ShloMosaic Idealize.ShloMosaic.TcCoe Idealize.SL.Sem Idealize.ShloMosaic.ValueIdx
open Idealize.ShloMosaic.Pipeline (Dat)

variable {F : FTy → Type} [FloatOps F]

theorem cov3_idx : ∀ t : Fin cfg1.N, win1_3.index t (0 : Fin 2) = t.val / 8 ∧ win1_3.index t (1 : Fin 2) = 0 :=
  (by decide +kernel : ∀ t : Fin grid1.N, _)

theorem cov3_lt64 (t : Fin cfg1.N) : t.val < 64 := lt_of_lt_of_eq t.isLt (show cfg1.N = 64 from N_1)
theorem cov3_div8_lt (t : Fin cfg1.N) : t.val / 8 < 8 := by have := cov3_lt64 t; omega

theorem cov3_mem_blk (t : Fin cfg1.N) (i : S8192x256.Idx) :
    i ∈ ((cfg1.win 3).blk t).view.set ↔ ∀ a : Fin 2, win1_3.index t a * S1024x256.size a ≤ (i a).val ∧ (i a).val < win1_3.index t a * S1024x256.size a + S1024x256.size a := by
  show i ∈ ((View.whole main_v43).slice (win1_3.rect t)).set ↔ _
  rw [View.set_slice_whole, Rect.mem_set_unit]
  exact Iff.rfl

theorem cov3_cover (i : S8192x256.Idx) :
    ∃ t : Fin cfg1.N, (cfg1.win 3).flush t = true ∧ i ∈ ((cfg1.win 3).blk t).view.set := by
  have hi0 : (i 0).val < 8192 := (i 0).isLt
  have hi1 : (i 1).val < 256 := (i 1).isLt
  have hb : 8 * ((i 0).val / 1024) + 7 < cfg1.N := lt_of_lt_of_eq (by omega : 8 * ((i 0).val / 1024) + 7 < 64) (show (64 : ℕ) = cfg1.N from N_1.symm)
  obtain ⟨e0, e1⟩ := cov3_idx ⟨8 * ((i 0).val / 1024) + 7, hb⟩
  have ev : (⟨8 * ((i 0).val / 1024) + 7, hb⟩ : Fin cfg1.N).val = 8 * ((i 0).val / 1024) + 7 := rfl
  refine ⟨⟨8 * ((i 0).val / 1024) + 7, hb⟩, (flush1_3 _).mpr (by rw [ev]; omega), ?_⟩
  rw [cov3_mem_blk]
  rw [ev] at e0
  intro a
  match a with
  | ⟨0, _⟩ => show win1_3.index ⟨8 * ((i 0).val / 1024) + 7, hb⟩ (0 : Fin 2) * 1024 ≤ (i 0).val ∧ (i 0).val < win1_3.index ⟨8 * ((i 0).val / 1024) + 7, hb⟩ (0 : Fin 2) * 1024 + 1024; omega
  | ⟨1, _⟩ => show win1_3.index ⟨8 * ((i 0).val / 1024) + 7, hb⟩ (1 : Fin 2) * 256 ≤ (i 1).val ∧ (i 1).val < win1_3.index ⟨8 * ((i 0).val / 1024) + 7, hb⟩ (1 : Fin 2) * 256 + 256; omega

theorem cov3_block (X : Vec F S1024x256 .f32) (G : S8192x256.Idx → Elt F .f32) (q : ℕ) (hq : q < 8)
    (h : ∀ (r : Fin 1024) (k : Fin 256), X (ix2 r k) = G (ix2 (rowIx q hq r) k))
    (r : Fin 1024) (k : Fin 256) (e : S8192x256.Idx) (he0 : (e 0).val = q * 1024 + 1 * r.val) (he1 : (e 1).val = 0 * 256 + 1 * k.val) :
    X (ix2 r k) = G e := by
  rw [h r k]
  refine congrArg G (funext fun a => Fin.ext ?_)
  match a with
  | ⟨0, _⟩ => show 1024 * q + r.val = (e 0).val; omega
  | ⟨1, _⟩ => show k.val = (e 1).val; omega

theorem cov3_flushed {c : Dev nD} (dat : Dat τ (Elt F) Unit ℕ (UR sig nD τ) ℕ cfg1 c)
    (O : Fin cfg1.N → Vec F S1024x256 .f32) (hafter : ∀ t, dat.after 3 t = O t)
    (G : S8192x256.Idx → Elt F .f32)
    (hflush : ∀ t : Fin cfg1.N, t.val % 8 = 7 → ∀ (r : Fin 1024) (k : Fin 256),
      O t (ix2 r k) = G (ix2 (rowIx (t.val / 8) (cov3_div8_lt t) r) k))
    (t : Fin cfg1.N) (hf : (cfg1.win 3).flush t = true) :
    dat.flushed 3 t = ((cfg1.win 3).blk t).view.read (Elt F) G := by
  show (cfg1.win 3).cut (grid1.coords t) (dat.after 3 t) = _
  rw [hafter]
  have h7 : t.val % 8 = 7 := (flush1_3 t).mp hf
  obtain ⟨e0, e1⟩ := cov3_idx t
  funext j
  show O t j = G (((cfg1.win 3).blk t).view.emb j)
  rw [eq_ix2 (n0 := 1024) (n1 := 256) j]
  exact cov3_block (O t) G (t.val / 8) (cov3_div8_lt t) (hflush t h7) (j 0) (j 1) _
    (show win1_3.index t (0 : Fin 2) * 1024 + 1 * (j 0).val = _ by rw [e0])
    (show win1_3.index t (1 : Fin 2) * 256 + 1 * (j 1).val = _ by rw [e1])

theorem arrAt3_eq_of {c : Dev nD} (dat : Dat τ (Elt F) Unit ℕ (UR sig nD τ) ℕ cfg1 c)
    (O : Fin cfg1.N → Vec F S1024x256 .f32) (hafter : ∀ t, dat.after 3 t = O t)
    (G : S8192x256.Idx → Elt F .f32)
    (hflush : ∀ t : Fin cfg1.N, t.val % 8 = 7 → ∀ (r : Fin 1024) (k : Fin 256),
      O t (ix2 r k) = G (ix2 (rowIx (t.val / 8) (cov3_div8_lt t) r) k)) :
    dat.arrAt 3 cfg1.N = G :=
  dat.arrAt_eq_of_cover 3 G (fun t hf => cov3_flushed dat O hafter G hflush t hf) cov3_cover

end Cert.KernelIdeal.Gen1

end
-- ==== Proof.R1Value.lean ====
import proofs.«410106_j61143154426041_3_alg».proof.Proof.KI_R1Frame
import proofs.«410106_j61143154426041_3_alg».proof.Proof.R1ValueA
import proofs.«410106_j61143154426041_3_alg».proof.Proof.R1ValueB
import proofs.«410106_j61143154426041_3_alg».proof.Proof.KI_R1CoverOf

set_option maxRecDepth 16384

noncomputable section

namespace Cert.KernelIdeal.R1Value

open Cert.KernelIdeal Cert.KernelIdeal.Gen Cert.KernelIdeal.Gen1
open Idealize.ShloMosaic Idealize.ShloMosaic.TcCoe Idealize.ShloMosaic.ValueIdx
open Idealize.SL.Sem
open Cert.Softmax Cert.Spec

variable (V : (c : Dev nD) → (b : Ref sig .tc) → Buf (Elt Ideal) ((c : Thread nD τ).loc b))

theorem h_apply (c : Dev nD) (t : Fin cfg1.N) (q : Fin 1024) (k : Fin 256) :
    (hblkOf (F := Ideal) (grid1.coords t) (iblk1 V c 1 t) : Vec Ideal S1024x256 .bf16) (ix2 q k)
      = Harr V c (ix2 (colIx (t.val % 8) (mod8_lt t) q) k) :=
  (hblk_apply t (iblk1 V c 1 t) q k).trans (hres_apply V c t (colIx (t.val % 8) (mod8_lt t) q) k)

/-- After position `n` the carried state is the streamed softmax of row block `n / 8` over its first `n % 8 + 1` column blocks. -/
theorem inv_at (c : Dev nD) (hA : ∀ j, ∃ r : ℝ, Aarr V c j = (r : EReal)) (hH : ∀ j, ∃ r : ℝ, Harr V c j = (r : EReal)) :
    ∀ (n : ℕ) (hn : n < cfg1.N),
      Inv (Aarr V c) (Harr V c) (n / 8) (div8_lt ⟨n, hn⟩) (n % 8 + 1) (scAt V c n hn).1 (scAt V c n hn).2.1 (scAt V c n hn).2.2 := by
  intro n
  induction n using Nat.strong_induction_on with
  | _ n ih =>
    intro hn
    have h64 : n < 64 := lt64 ⟨n, hn⟩
    rw [scAt_eq V c ⟨n, hn⟩]
    refine Inv.step hA hH (n / 8) (div8_lt ⟨n, hn⟩) (n % 8) (mod8_lt ⟨n, hn⟩) ?_
      (iblk1 V c 0 ⟨n, hn⟩) (hblkOf (F := Ideal) (grid1.coords ⟨n, hn⟩) (iblk1 V c 1 ⟨n, hn⟩)) (xblk_apply V c ⟨n, hn⟩) (h_apply V c ⟨n, hn⟩)
    by_cases h0 : n % 8 = 0
    · rw [if_pos h0]; exact (Inv.init (n / 8) (div8_lt ⟨n, hn⟩)).cast rfl h0.symm
    · rw [if_neg h0]; exact (ih (n - 1) (by omega) _).cast (by omega) (by omega)

abbrev bvec (c : Dev nD) : S256.Idx → EReal := fun j => Barr V c (ix2 0 (j 0))

/-- With real logits and features the result is the attention output: the last column block of each row block stores it, and those blocks cover the array. -/
theorem out_eq (c : Dev nD)
    (hA : ∀ j, ∃ r : ℝ, (V c main_v41 : S8192x8192.Idx → EReal) j = (r : EReal))
    (hH : ∀ j, ∃ r : ℝ, (V c main_v0_1 : S8192x256.Idx → EReal) j = (r : EReal))
    (hB : ∀ j, ∃ r : ℝ, (V c main_v42 : S1x256.Idx → EReal) j = (r : EReal)) :
    (dat1 (F := Ideal) V c).arrAt 3 cfg1.N
      = aggSpec (V c main_v41) (V c main_v0_1) (fun j => V c main_v42 (ix2 0 (j 0))) :=
  arrAt3_eq_of (dat1 V c) _ (after1_3 V c) (aggSpec (Aarr V c) (Harr V c) (bvec V c)) fun t h7 r k =>
    Inv.out (t.val / 8) (div8_lt t) ((inv_at V c hA hH t.val t.isLt).cast rfl (by omega)) (iblk1 V c 2 t) (bvec V c)
      (bblk_apply V c t) r k

end Cert.KernelIdeal.R1Value

end
-- ==== Proof.Finite.lean ====
import proofs.«410106_j61143154426041_3_alg».proof.Defs
import Idealize.ShloMosaic.Lib.ReduceAll
import Idealize.ShloMosaic.Lib.ValueIdx

noncomputable section

namespace Cert.Finite

open Idealize.ShloMosaic Idealize.SL.Sem Cert.Pre_finite_inputs

-- |x| = max x (-x) below +∞ excludes both infinities
theorem real_of_cmp (x : EReal)
    (h : Ideal.cmp .olt (max x (-x)) (Ideal.ofBits .f32 0x7F800000#32) = 1#1) : ∃ r : ℝ, x = (r : EReal) := by
  rw [show Ideal.ofBits .f32 0x7F800000#32 = (⊤ : EReal) by simp [Ideal.ofBits, Ideal.ieee]] at h
  have hlt : max x (-x) < ⊤ := by
    by_contra hn
    exact absurd ((congrArg BitVec.ofBool (decide_eq_false hn)).symm.trans h) (by decide)
  induction x using EReal.rec with
  | coe r => exact ⟨r, rfl⟩
  | bot => simp at hlt
  | top => simp at hlt

instance : Subsingleton S_.Idx := ⟨fun a b => funext fun d => d.elim0⟩

theorem all_real {s : Shape} {axes : List (Fin s.rank)} (x : FVec Ideal s .f32)
    (bc : S_.BroadcastsInDim s (![] : Fin 0 → Fin s.rank)) (hr : s.ReducesTo axes S_) (hu : 0 < S_.numel) (init : IVec S_ 1)
    (e : Host.reduce IntOp.andi
          (cmpf .olt (Host.absf x) (broadcastInDim s ![] bc (constant (F := Ideal) S_ .f32 0x7F800000#32)))
          init hr hu ValueIdx.ix0 = 1#1) (j : s.Idx) : ∃ r : ℝ, x j = (r : EReal) :=
  real_of_cmp (x j) (Host.reduce_andi_all _ init hr hu _ e j)

theorem pre_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, ∃ r : ℝ, (m ((c.tc : Thread Cert.KernelIdeal.nD Cert.KernelIdeal.τ).loc Cert.KernelIdeal.main_arg0)
        : FVec Ideal Cert.Pre_finite_inputs.S8192x512 .f32) j = (r : EReal))
    ∧ (∀ j, ∃ r : ℝ, (m ((c.tc : Thread Cert.KernelIdeal.nD Cert.KernelIdeal.τ).loc Cert.KernelIdeal.main_arg2)
        : FVec Ideal Cert.Pre_finite_inputs.S512x256 .f32) j = (r : EReal))
    ∧ (∀ j, ∃ r : ℝ, (m ((c.tc : Thread Cert.KernelIdeal.nD Cert.KernelIdeal.τ).loc Cert.KernelIdeal.main_arg3)
        : FVec Ideal Cert.Pre_finite_inputs.S512x1 .f32) j = (r : EReal))
    ∧ (∀ j, ∃ r : ℝ, (m ((c.tc : Thread Cert.KernelIdeal.nD Cert.KernelIdeal.τ).loc Cert.KernelIdeal.main_arg4)
        : FVec Ideal Cert.Pre_finite_inputs.S256 .f32) j = (r : EReal)) := by
  have e := congrFun (h c) ValueIdx.ix0
  dsimp only [Cert.Pre_finite_inputs.fn, Cert.Pre_finite_inputs.fn_part1, andi] at e
  obtain ⟨e123, e4⟩ := IntOp.andi_eq_one.1 e
  obtain ⟨e12, e3⟩ := IntOp.andi_eq_one.1 e123
  obtain ⟨e1, e2⟩ := IntOp.andi_eq_one.1 e12
  exact ⟨all_real _ _ _ _ _ e1, all_real _ _ _ _ _ e2, all_real _ _ _ _ _ e3, all_real _ _ _ _ _ e4⟩

end Cert.Finite

end
-- ==== Proof.Finite2.lean ====
import Idealize.ShloMosaic.PureOps.Ideal
import Mathlib.Algebra.BigOperators.Group.Finset.Basic

noncomputable section

namespace Cert.Finite

open Idealize.ShloMosaic

theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

theorem real_sum {ι : Type} (S : Finset ι) (f : ι → EReal) (hf : ∀ k ∈ S, ∃ r : ℝ, f k = (r : EReal)) :
    ∃ r : ℝ, ∑ k ∈ S, f k = (r : EReal) :=
  Finset.sum_induction f (fun x => ∃ r : ℝ, x = (r : EReal)) (fun _ _ => real_add) ⟨0, rfl⟩ hf

theorem real_sum_mul_univ {ι : Type} [Fintype ι] (f g : ι → EReal) (hf : ∀ k, ∃ r : ℝ, f k = (r : EReal))
    (hg : ∀ k, ∃ r : ℝ, g k = (r : EReal)) : ∃ r : ℝ, ∑ k, f k * g k = (r : EReal) :=
  real_sum _ _ fun k _ => real_mul (hf k) (hg k)

theorem foldl_keeps {β ι : Type} (Q : β → Prop) (f : β → ι → β) (hf : ∀ b n, Q b → Q (f b n)) :
    ∀ (l : List ι) (b : β), Q b → Q (l.foldl f b)
  | [], _, hb => hb
  | n :: l, b, hb => foldl_keeps Q f hf l (f b n) (hf b n hb)

-- each step of the fold leaves an entry alone or overwrites it by an update
theorem scatter_set_pred {α : Type} {s si u : Shape} {w : Nat} (d : ScatterDims s si u) (x : s.Idx → α) (idx : IVec si w)
    (upd : u.Idx → α) (P : α → Prop) (hx : ∀ j, P (x j)) (hu : ∀ k, P (upd k)) (j : s.Idx) :
    P (Host.scatter d (fun _ b => b) x idx upd j) := by
  refine foldl_keeps (fun r : s.Idx → α => ∀ j, P (r j)) _ ?_ _ x hx j
  intro r n hr
  dsimp only
  generalize d.resultIdx? (u.rowMajor.symm n) idx = o
  cases o with
  | none => exact hr
  | some i =>
    intro i'
    dsimp only
    split
    · exact hu _
    · exact hr i'

-- a word whose exponent field is not all ones denotes a real number
theorem real_ieee (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split <;> exact ⟨_, rfl⟩

theorem lit_02_real : ∃ r : ℝ, Ideal.ofBits .f32 0x3E4CCCCD#32 = (r : EReal) :=
  real_ieee 8 23 (0x3E4CCCCD#32 : BitVec 32) (by decide)

theorem lit_neg1e20_real : ∃ r : ℝ, Ideal.ofBits .f32 0xE0AD78EC#32 = (r : EReal) :=
  real_ieee 8 23 (0xE0AD78EC#32 : BitVec 32) (by decide)

theorem real_leaky (c : BitVec 1) {v : EReal} (hv : ∃ r : ℝ, v = (r : EReal)) :
    ∃ r : ℝ, Scalar.select c v (Ideal.ofBits .f32 0x3E4CCCCD#32 * v) = (r : EReal) := by
  unfold Scalar.select
  split
  · exact hv
  · exact real_mul lit_02_real hv

end Cert.Finite

end
-- ==== Proof.Finite3.lean ====
import proofs.«410106_j61143154426041_3_alg».proof.Proof.Finite2
import proofs.«410106_j61143154426041_3_alg».proof.Proof.Spec
import proofs.«410106_j61143154426041_3_alg».proof.Proof.KI_Terms
import Idealize.ShloMosaic.Lib.Pipeline.Value
import Idealize.ShloMosaic.Lib.ValueIdx
import Idealize.ShloMosaic.Lib.ValueLayout

noncomputable section

namespace Cert.Finite

open Idealize.ShloMosaic Idealize.ShloMosaic.ValueIdx
open Cert.KernelIdeal Cert.KernelIdeal.Gen Cert.KernelIdeal.Terms

theorem hSpec_real (x : (⟨2, ![8192, 512]⟩ : Shape).Idx → EReal) (w : (⟨2, ![512, 256]⟩ : Shape).Idx → EReal)
    (hx : ∀ j, ∃ r : ℝ, x j = (r : EReal)) (hw : ∀ j, ∃ r : ℝ, w j = (r : EReal)) :
    ∀ j, ∃ r : ℝ, Cert.Spec.hSpec x w j = (r : EReal) := fun _ =>
  real_sum_mul_univ _ _ (fun _ => hx _) (fun _ => hw _)

-- the logits are a real constant overwritten by the scores
theorem attnK_real (h : (⟨S8192x256, .f32⟩ : BufTy).Contents (Elt Ideal)) (a : (⟨S512x1, .f32⟩ : BufTy).Contents (Elt Ideal))
    (e : (⟨S2x262144, .i32⟩ : BufTy).Contents (Elt Ideal))
    (hs : ∀ j, ∃ r : ℝ, scoreK (F := Ideal) h a e j = (r : EReal)) :
    ∀ j, ∃ r : ℝ, attnK (F := Ideal) h a e j = (r : EReal) :=
  scatter_set_pred scatter_S8192x8192_S262144x2_S262144_n_01_01_1 _ (idxK (F := Ideal) e) (scoreK (F := Ideal) h a e)
    (fun y => ∃ r : ℝ, y = (r : EReal)) (fun _ => lit_neg1e20_real) hs

theorem biasK_apply (b : (⟨S256, .f32⟩ : BufTy).Contents (Elt Ideal)) (k : Fin 256) :
    biasK (F := Ideal) b (ix2 (0 : Fin 1) k) = b (ix1 k) :=
  shapeCast_a_1a_apply b shapeCasts_S256_S1x256 0 k

theorem biasK_real (b : (⟨S256, .f32⟩ : BufTy).Contents (Elt Ideal)) (hb : ∀ j, ∃ r : ℝ, b j = (r : EReal)) :
    ∀ j, ∃ r : ℝ, biasK (F := Ideal) b j = (r : EReal) := fun _ => hb _

end Cert.Finite

end
-- ==== Proof.RefRun.lean ====
import proofs.«410106_j61143154426041_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]
  (x : (⟨S8192x512, .f32⟩ : BufTy).Contents (Elt F)) (A : (⟨S8192x8192, .f32⟩ : BufTy).Contents (Elt F)) (h : (⟨S8192x256, .f32⟩ : BufTy).Contents (Elt F))
  (e : (⟨S2x262144, .i32⟩ : BufTy).Contents (Elt F)) (w : (⟨S512x256, .f32⟩ : BufTy).Contents (Elt F)) (a : (⟨S512x1, .f32⟩ : BufTy).Contents (Elt F)) (b : (⟨S256, .f32⟩ : BufTy).Contents (Elt F))
  (V : Valuation τ sig (Elt F))

def hTerm : (⟨S8192x256, .f32⟩ : BufTy).Contents (Elt F) :=
  Host.dotGeneral dot_S8192x512_S512x256_S8192x256_1_0_0_1_n_n none x w

def srcRaw : (⟨S262144, .i32⟩ : BufTy).Contents (Elt F) :=
  shapeCast S262144 (extractStridedSlice S1x262144 ![0, 0] e slices_S2x262144_S1x262144_0_0) shapeCasts_S1x262144_S262144
def tgtRaw : (⟨S262144, .i32⟩ : BufTy).Contents (Elt F) :=
  shapeCast S262144 (extractStridedSlice S1x262144 ![1, 0] e slices_S2x262144_S1x262144_1_0) shapeCasts_S1x262144_S262144

def normIdx (v : (⟨S262144, .i32⟩ : BufTy).Contents (Elt F)) : (⟨S262144, .i32⟩ : BufTy).Contents (Elt F) :=
  select (cmpi .slt v (broadcastInDim S262144 ![] bcast_S_S262144 (constantI S_ 32 0#32)))
    (addi v (broadcastInDim S262144 ![] bcast_S_S262144 (constantI S_ 32 8192#32))) v

def srcTerm : (⟨S262144, .i32⟩ : BufTy).Contents (Elt F) := normIdx (F := F) (srcRaw (F := F) e)

def tgtTerm : (⟨S262144, .i32⟩ : BufTy).Contents (Elt F) := normIdx (F := F) (tgtRaw (F := F) e)

def rowsTerm (i : (⟨S262144, .i32⟩ : BufTy).Contents (Elt F)) : (⟨S262144x256, .f32⟩ : BufTy).Contents (Elt F) :=
  Host.gather gather_S8192x256_S262144x1_S262144x256_1_0_n_n_0_1_1256 h (broadcastInDim S262144x1 ![0] bcast_S262144_S262144x1_0 i)

def preScoreTerm : (⟨S262144x1, .f32⟩ : BufTy).Contents (Elt F) :=
  Host.dotGeneral dot_S262144x512_S512x1_S262144x1_1_0_0_1_n_n none
    (concatenate S262144x512 1 [⟨S262144x256, rowsTerm h (srcTerm (F := F) e)⟩, ⟨S262144x256, rowsTerm h (tgtTerm (F := F) e)⟩]
      concatenates_S262144x256_S262144x256_S262144x512_d1) a

def leakyTerm (z : (⟨S262144x1, .f32⟩ : BufTy).Contents (Elt F)) : (⟨S262144x1, .f32⟩ : BufTy).Contents (Elt F) :=
  select (cmpf (F := F) .oge z (broadcastInDim S262144x1 ![] bcast_S_S262144x1 (constant S_ .f32 0x00000000#32))) z
    (mulf (broadcastInDim S262144x1 ![] bcast_S_S262144x1 (id (constant S_ .f32 0x3E4CCCCD#32))) z)

def scoreTerm : (⟨S262144, .f32⟩ : BufTy).Contents (Elt F) :=
  shapeCast S262144 (leakyTerm (preScoreTerm h e a)) shapeCasts_S262144x1_S262144

def idxTerm : (⟨S262144x2, .i32⟩ : BufTy).Contents (Elt F) :=
  concatenate S262144x2 1 [⟨S262144x1, broadcastInDim S262144x1 ![0] bcast_S262144_S262144x1_0 (srcTerm (F := F) e)⟩,
      ⟨S262144x1, broadcastInDim S262144x1 ![0] bcast_S262144_S262144x1_0 (tgtTerm (F := F) e)⟩]
    concatenates_S262144x1_S262144x1_S262144x2_d1

def attnTerm : (⟨S8192x8192, .f32⟩ : BufTy).Contents (Elt F) :=
  Host.scatter scatter_S8192x8192_S262144x2_S262144_n_01_01_1 (fun _ b => b)
    (broadcastInDim S8192x8192 ![] bcast_S_S8192x8192 (constant S_ .f32 0xE0AD78EC#32)) (idxTerm (F := F) e) (scoreTerm h e a)

def rowMaxTerm : (⟨S8192, .f32⟩ : BufTy).Contents (Elt F) :=
  maximumf (broadcastInDim S8192 ![] bcast_S_S8192 (constant S_ .f32 0xFF800000#32))
    (Host.reduce FloatOps.maximumf A (constant S_ .f32 0xFF800000#32) reducesTo_S8192x8192_S8192_d1 h_S_)

def expTerm : (⟨S8192x8192, .f32⟩ : BufTy).Contents (Elt F) :=
  Host.exp (subf A (broadcastInDim S8192x8192 ![0, 1] bcast_S8192x1_S8192x8192_0_1
    (broadcastInDim S8192x1 ![0] bcast_S8192_S8192x1_0 (rowMaxTerm A))))

def softTerm : (⟨S8192x8192, .f32⟩ : BufTy).Contents (Elt F) :=
  Host.divf (expTerm A) (broadcastInDim S8192x8192 ![0, 1] bcast_S8192x1_S8192x8192_0_1
    (broadcastInDim S8192x1 ![0] bcast_S8192_S8192x1_0
      (Host.reduceAdd (expTerm A) (constant S_ .f32 0x00000000#32) reducesTo_S8192x8192_S8192_d1 h_S_)))

def outTerm : (⟨S8192x256, .f32⟩ : BufTy).Contents (Elt F) :=
  addf (Host.dotGeneral dot_S8192x8192_S8192x256_S8192x256_1_0_0_1_n_n none (softTerm A) h)
    (broadcastInDim S8192x256 ![0, 1] bcast_S1x256_S8192x256_0_1 (broadcastInDim S1x256 ![1] bcast_S256_S1x256_1 b))

def resultTerm : (⟨S8192x256, .f32⟩ : BufTy).Contents (Elt F) :=
  outTerm (attnTerm (hTerm x w) e a) (hTerm x w) b

abbrev ops : List (HloOp τ sig (Elt F)) :=
  [ binary main_arg0 main_arg2 main_v0 (fun l r => Host.dotGeneral dot_S8192x512_S512x256_S8192x256_1_0_0_1_n_n none l r),
    unary main_arg1 main_v1 (extractStridedSlice S1x262144 ![0, 0] · slices_S2x262144_S1x262144_0_0),
    reshape main_v1 main_v2 rfl shapeCasts_S1x262144_S262144,
    unary main_arg1 main_v3 (extractStridedSlice S1x262144 ![1, 0] · slices_S2x262144_S1x262144_1_0),
    reshape main_v3 main_v4 rfl shapeCasts_S1x262144_S262144,
    nullary main_c (constantI S_ 32 0#32),
    unary main_c main_v5 (broadcastInDim S262144 ![] bcast_S_S262144),
    binary main_v2 main_v5 main_v6 (cmpi .slt),
    nullary main_c_0 (constantI S_ 32 8192#32),
    unary main_c_0 main_v7 (broadcastInDim S262144 ![] bcast_S_S262144),
    binary main_v2 main_v7 main_v8 addi,
    ternary main_v6 main_v8 main_v2 main_v9 select,
    unary main_v9 main_v10 (broadcastInDim S262144x1 ![0] bcast_S262144_S262144x1_0),
    binary main_v0 main_v10 main_v11 (fun x i => Host.gather gather_S8192x256_S262144x1_S262144x256_1_0_n_n_0_1_1256 x i),
    nullary main_c_1 (constantI S_ 32 0#32),
    unary main_c_1 main_v12 (broadcastInDim S262144 ![] bcast_S_S262144),
    binary main_v4 main_v12 main_v13 (cmpi .slt),
    nullary main_c_2 (constantI S_ 32 8192#32),
    unary main_c_2 main_v14 (broadcastInDim S262144 ![] bcast_S_S262144),
    binary main_v4 main_v14 main_v15 addi,
    ternary main_v13 main_v15 main_v4 main_v16 select,
    unary main_v16 main_v17 (broadcastInDim S262144x1 ![0] bcast_S262144_S262144x1_0),
    binary main_v0 main_v17 main_v18 (fun x i => Host.gather gather_S8192x256_S262144x1_S262144x256_1_0_n_n_0_1_1256 x i),
    binary main_v11 main_v18 main_v19 (fun a b => concatenate S262144x512 1 [⟨S262144x256, a⟩, ⟨S262144x256, b⟩] concatenates_S262144x256_S262144x256_S262144x512_d1),
    binary main_v19 main_arg3 main_v20 (fun l r => Host.dotGeneral dot_S262144x512_S512x1_S262144x1_1_0_0_1_n_n none l r),
    nullary main_cst (constant S_ .f32 0x3E4CCCCD#32),
    nullary main_call0_cst (constant S_ .f32 0x00000000#32),
    unary main_call0_cst main_call0_v0 (broadcastInDim S262144x1 ![] bcast_S_S262144x1),
    binary main_v20 main_call0_v0 main_call0_v1 (cmpf .oge),
    unary main_cst main_call0_v2 id,
    unary main_call0_v2 main_call0_v3 (broadcastInDim S262144x1 ![] bcast_S_S262144x1),
    binary main_call0_v3 main_v20 main_call0_v4 mulf,
    ternary main_call0_v1 main_v20 main_call0_v4 main_v21 select,
    reshape main_v21 main_v22 rfl shapeCasts_S262144x1_S262144,
    nullary main_cst_3 (constant S_ .f32 0xE0AD78EC#32),
    unary main_cst_3 main_v23 (broadcastInDim S8192x8192 ![] bcast_S_S8192x8192),
    nullary main_c_4 (constantI S_ 32 0#32),
    unary main_c_4 main_v24 (broadcastInDim S262144 ![] bcast_S_S262144),
    binary main_v2 main_v24 main_v25 (cmpi .slt),
    nullary main_c_5 (constantI S_ 32 8192#32),
    unary main_c_5 main_v26 (broadcastInDim S262144 ![] bcast_S_S262144),
    binary main_v2 main_v26 main_v27 addi,
    ternary main_v25 main_v27 main_v2 main_v28 select,
    nullary main_c_6 (constantI S_ 32 0#32),
    unary main_c_6 main_v29 (broadcastInDim S262144 ![] bcast_S_S262144),
    binary main_v4 main_v29 main_v30 (cmpi .slt),
    nullary main_c_7 (constantI S_ 32 8192#32),
    unary main_c_7 main_v31 (broadcastInDim S262144 ![] bcast_S_S262144),
    binary main_v4 main_v31 main_v32 addi,
    ternary main_v30 main_v32 main_v4 main_v33 select,
    unary main_v28 main_v34 (broadcastInDim S262144x1 ![0] bcast_S262144_S262144x1_0),
    unary main_v33 main_v35 (broadcastInDim S262144x1 ![0] bcast_S262144_S262144x1_0),
    binary main_v34 main_v35 main_v36 (fun a b => concatenate S262144x2 1 [⟨S262144x1, a⟩, ⟨S262144x1, b⟩] concatenates_S262144x1_S262144x1_S262144x2_d1),
    ternary main_v23 main_v36 main_v22 main_v37 (fun x i u => Host.scatter scatter_S8192x8192_S262144x2_S262144_n_01_01_1 (fun _ b => b) x i u),
    nullary main_cst_8 (constant S_ .f32 0xFF800000#32),
    binary main_v37 main_cst_8 main_v38 (fun x v => Host.reduce FloatOps.maximumf x v reducesTo_S8192x8192_S8192_d1 h_S_),
    nullary main_cst_9 (constant S_ .f32 0xFF800000#32),
    unary main_cst_9 main_v39 (broadcastInDim S8192 ![] bcast_S_S8192),
    binary main_v39 main_v38 main_v40 maximumf,
    unary main_v40 main_v41 (broadcastInDim S8192x1 ![0] bcast_S8192_S8192x1_0),
    unary main_v41 main_v42 (broadcastInDim S8192x8192 ![0, 1] bcast_S8192x1_S8192x8192_0_1),
    binary main_v37 main_v42 main_v43 subf,
    unary main_v43 main_v44 Host.exp,
    nullary main_cst_10 (constant S_ .f32 0x00000000#32),
    binary main_v44 main_cst_10 main_v45 (fun x v => Host.reduceAdd x v reducesTo_S8192x8192_S8192_d1 h_S_),
    unary main_v45 main_v46 (broadcastInDim S8192x1 ![0] bcast_S8192_S8192x1_0),
    unary main_v46 main_v47 (broadcastInDim S8192x8192 ![0, 1] bcast_S8192x1_S8192x8192_0_1),
    binary main_v44 main_v47 main_v48 Host.divf,
    binary main_v48 main_v0 main_v49 (fun l r => Host.dotGeneral dot_S8192x8192_S8192x256_S8192x256_1_0_0_1_n_n none l r),
    unary main_arg4 main_v50 (broadcastInDim S1x256 ![1] bcast_S256_S1x256_1),
    unary main_v50 main_v51 (broadcastInDim S8192x256 ![0, 1] bcast_S1x256_S8192x256_0_1),
    binary main_v49 main_v51 main_v52 addf ]

theorem main_eq (c : Dev nD) : main (F := F) c = seq ops := by
  simp only [main, main_part0, main_part1, fn_leaky_relu.body, fn_where.body, seq, bind_assoc, pure_bind]
  rfl

theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub .., reshape_bufs_sub .., nullary_bufs_sub .., unary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., ternary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub .., binary_bufs_sub .., unary_bufs_sub .., unary_bufs_sub .., binary_bufs_sub ..⟩

attribute [local irreducible] Host.gather Host.scatter Host.reduce Host.reduceAdd Host.exp Host.divf concatenate broadcastInDim shapeCast extractStridedSlice select cmpi cmpf addi addf subf mulf maximumf constant constantI in
theorem res_eq :
    after ops V (main_v52 : DevRef τ sig)
      = resultTerm (V (main_arg0 : DevRef τ sig)) (V (main_arg1 : DevRef τ sig)) (V (main_arg2 : DevRef τ sig)) (V (main_arg3 : DevRef τ sig)) (V (main_arg4 : DevRef τ sig)) := by
  after_results_simp
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = resultTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v52).trans (res_eq _),
      (h c main_arg0).trans (by after_results_simp), (h c main_arg1).trans (by after_results_simp), (h c main_arg2).trans (by after_results_simp),
      (h c main_arg3).trans (by after_results_simp), (h c main_arg4).trans (by after_results_simp)⟩)
    (run_seq (by decide) (by decide) defs main (fun _ => ops) main_eq (fun _ => ops_sub) m ρ)

end Cert.ReferenceIdeal.RefRun

end
-- ==== Proof.LibGatherRows.lean ====
import Idealize.ShloMosaic.PureOps
import Idealize.ShloMosaic.Lib.ValueIdx
noncomputable section

namespace Cert.LibGatherRows
open Idealize.ShloMosaic Idealize.ShloMosaic.ValueIdx

-- on axis 0 (collapsed) the operand index is the clamped start word; on axis 1 (kept whole) it is the result's column
theorem gather_rows_apply {N M C w : Nat} {α : Type} (d : GatherDims ⟨2, ![N, C]⟩ ⟨2, ![M, 1]⟩ ⟨2, ![M, C]⟩)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, C]) (hN : 0 < N)
    (x : (⟨2, ![N, C]⟩ : Shape).Idx → α) (idx : IVec ⟨2, ![M, 1]⟩ w) (r : Fin M) (k : Fin C) :
    Host.gather d x idx (ix2 r k)
      = x (ix2 (⟨min (idx (ix2 r (0 : Fin 1))).toInt.toNat (N - 1), by omega⟩ : Fin N) k) := by
  obtain ⟨od, cd, ob, sb, sm, iv, ss, wf⟩ := d
  simp only at h1 h2 h3 h4 h5 h6 h7
  subst h1 h2 h3 h4 h5 h6 h7
  unfold Host.gather
  refine congrArg x (funext fun a => Fin.ext ?_)
  match a with
  | ⟨0, _⟩ =>
    show GatherDims.start _ (ix2 r k) idx 0 + GatherDims.batchCoord _ (ix2 r k) 0 + GatherDims.offCoord _ (ix2 r k) 0 = _
    rw [GatherDims.batchCoord_eq_zero _ _ _ List.not_mem_nil,
      GatherDims.offCoord_eq_zero _ _ _ fun h => ((GatherDims.mem_sKept _ _).1 h).1 (List.mem_singleton.2 rfl)]
    unfold GatherDims.start
    rw [dif_pos (List.mem_singleton.2 rfl)]
    exact congrArg (fun k => min (idx k).toInt.toNat (N - 1)) (funext fun b => Fin.ext (by
      match b with
      | ⟨0, _⟩ => rfl
      | ⟨1, _⟩ => rfl))
  | ⟨1, _⟩ =>
    show GatherDims.start _ (ix2 r k) idx 1 + GatherDims.batchCoord _ (ix2 r k) 1 + GatherDims.offCoord _ (ix2 r k) 1 = k.val
    rw [GatherDims.batchCoord_eq_zero _ _ _ List.not_mem_nil]
    unfold GatherDims.start GatherDims.offCoord
    rw [dif_neg (show (1 : Fin 2) ∉ [0] by decide),
      dif_pos ((GatherDims.mem_sKept _ _).2 ⟨show (1 : Fin 2) ∉ [0] by decide, List.not_mem_nil⟩)]
    exact Nat.zero_add _

end Cert.LibGatherRows
end
-- ==== Proof.LibGatherVec.lean ====
import Idealize.ShloMosaic.PureOps
import Idealize.ShloMosaic.Lib.ValueIdx
noncomputable section

namespace Cert.LibGatherVec
open Idealize.ShloMosaic Idealize.ShloMosaic.ValueIdx

-- the operand index is the clamped start word: the axis is collapsed and nothing is batched
theorem gather_vec_apply {N M w : Nat} {α : Type} (d : GatherDims ⟨1, ![N]⟩ ⟨2, ![M, 1]⟩ ⟨1, ![M]⟩)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1]) (hN : 0 < N)
    (x : (⟨1, ![N]⟩ : Shape).Idx → α) (idx : IVec ⟨2, ![M, 1]⟩ w) (r : Fin M) :
    Host.gather d x idx (ix1 r)
      = x (ix1 (⟨min (idx (ix2 r (0 : Fin 1))).toInt.toNat (N - 1), by omega⟩ : Fin N)) := by
  obtain ⟨od, cd, ob, sb, sm, iv, ss, wf⟩ := d
  simp only at h1 h2 h3 h4 h5 h6 h7
  subst h1 h2 h3 h4 h5 h6 h7
  unfold Host.gather
  refine congrArg x (funext fun a => Fin.ext ?_)
  obtain rfl : a = 0 := Subsingleton.elim _ _
  show GatherDims.start _ (ix1 r) idx 0 + GatherDims.batchCoord _ (ix1 r) 0 + GatherDims.offCoord _ (ix1 r) 0 = _
  rw [GatherDims.batchCoord_eq_zero _ _ _ List.not_mem_nil,
    GatherDims.offCoord_eq_zero _ _ _ fun h => ((GatherDims.mem_sKept _ _).1 h).1 (List.mem_singleton.2 rfl)]
  unfold GatherDims.start
  rw [dif_pos (List.mem_singleton.2 rfl)]
  exact congrArg (fun k => min (idx k).toInt.toNat (N - 1)) (funext fun b => Fin.ext (by
    match b with
    | ⟨0, _⟩ => rfl
    | ⟨1, _⟩ => rfl))

end Cert.LibGatherVec
end
-- ==== Proof.EdgeScore.lean ====
import proofs.«410106_j61143154426041_3_alg».proof.Proof.Gen.KernelIdeal
import proofs.«410106_j61143154426041_3_alg».proof.Proof.Gen.ReferenceIdeal
import proofs.«410106_j61143154426041_3_alg».proof.Proof.KI_Terms
import proofs.«410106_j61143154426041_3_alg».proof.Proof.RefRun
import proofs.«410106_j61143154426041_3_alg».proof.Proof.LibGatherRows
import proofs.«410106_j61143154426041_3_alg».proof.Proof.LibGatherVec
import proofs.«410106_j61143154426041_3_alg».proof.Proof.LibMatmulPlain
import proofs.«410106_j61143154426041_3_alg».proof.Proof.Finite2
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember
import Mathlib.Algebra.BigOperators.Fin

noncomputable section

namespace Cert.EdgeScore

open Idealize.ShloMosaic Idealize.ShloMosaic.ValueIdx Cert.Finite
open Idealize.ShloMosaic.StackMember (dotGeneral_plain_apply)
open scoped BigOperators

section Generic
variable {α : Type} {M A B C : ℕ}

theorem shapeCast_a1_a_apply {n : ℕ} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    omega)

theorem broadcastInDim_col_apply (hb : (⟨1, ![M]⟩ : Shape).BroadcastsInDim ⟨2, ![M, 1]⟩ (![0] : Fin 1 → Fin 2))
    (v : (⟨1, ![M]⟩ : Shape).Idx → α) (r : Fin M) (u : Fin 1) :
    broadcastInDim ⟨2, ![M, 1]⟩ (![0] : Fin 1 → Fin 2) hb v (ix2 r u) = v (ix1 r) :=
  broadcastInDim_apply _ hb v _ _ (fun a => by
    match a with
    | ⟨0, _⟩ =>
      show r.val = if M = 1 then 0 else r.val
      split <;> omega)

variable (x₁ : (⟨2, ![M, A]⟩ : Shape).Idx → α) (x₂ : (⟨2, ![M, B]⟩ : Shape).Idx → α)
  (h : Shape.Concatenates [⟨2, ![M, A]⟩, ⟨2, ![M, B]⟩] ⟨2, ![M, C]⟩ 1) (r : Fin M) (k : Fin C)

theorem concat_cols_left (q : Fin A) (hk : k.val = q.val) :
    concatenate ⟨2, ![M, C]⟩ 1 [⟨⟨2, ![M, A]⟩, x₁⟩, ⟨⟨2, ![M, B]⟩, x₂⟩] h (ix2 r k) = x₁ (ix2 r q) :=
  concatenate_pair_apply_left 1 x₁ x₂ h (ix2 r k) rfl (ix2 r q) (fun b => by
    match b with
    | ⟨0, _⟩ => rfl
    | ⟨1, _⟩ => exact hk.symm)

theorem concat_cols_right (q : Fin B) (hk : k.val = A + q.val) :
    concatenate ⟨2, ![M, C]⟩ 1 [⟨⟨2, ![M, A]⟩, x₁⟩, ⟨⟨2, ![M, B]⟩, x₂⟩] h (ix2 r k) = x₂ (ix2 r q) :=
  concatenate_pair_apply_right 1 x₁ x₂ h (ix2 r k) rfl rfl (ix2 r q)
    (fun b hb => by
      match b with
      | ⟨0, _⟩ => rfl
      | ⟨1, _⟩ => exact absurd rfl hb)
    (by
      show q.val + A = k.val
      omega)

theorem sum_split_halves {β : Type} [AddCommMonoid β] (hC : C = A + B) (f : Fin C → β) :
    ∑ k : Fin C, f k = ∑ q : Fin A, f ⟨q.val, by omega⟩ + ∑ q : Fin B, f ⟨A + q.val, by omega⟩ := by
  subst hC
  rw [Fin.sum_univ_add]
  rfl

end Generic

def rowOf (I : IVec ⟨1, ![262144]⟩ 32) (r : Fin 262144) : Fin 8192 :=
  ⟨min (I (ix1 r)).toInt.toNat (8192 - 1), by omega⟩

variable (h : FVec Ideal ⟨2, ![8192, 256]⟩ .f32) (a : FVec Ideal ⟨2, ![512, 1]⟩ .f32) (e : IVec ⟨2, ![2, 262144]⟩ 32)
  (r : Fin 262144)

def edgeSum (s t : Fin 8192) : EReal :=
  (∑ q : Fin 256, h (ix2 s q) * a (ix2 (⟨q.val, by omega⟩ : Fin 512) (0 : Fin 1)))
    + ∑ q : Fin 256, h (ix2 t q) * a (ix2 (⟨256 + q.val, by omega⟩ : Fin 512) (0 : Fin 1))

def leaky1 (z : EReal) : EReal :=
  Scalar.select (FloatOps.cmpf (F := Ideal) (φ := .f32) .oge z (Ideal.ofBits .f32 0x00000000#32)) z
    (Ideal.ofBits .f32 0x3E4CCCCD#32 * z)

section KernelSide
open Cert.KernelIdeal Cert.KernelIdeal.Gen

-- an entry of h·a[o:o+256]
theorem half_apply (o : ℕ) (ho : o + 256 ≤ 512) (hs : S512x1.Slices ![o, 0] S256x1) (s : Fin 8192) :
    shapeCast S8192 (Host.dotGeneral dot_S8192x256_S256x1_S8192x1_1_0_0_1_n_n none h (extractStridedSlice S256x1 ![o, 0] a hs))
        shapeCasts_S8192x1_S8192 (ix1 s)
      = ∑ q : Fin 256, h (ix2 s q) * a (ix2 (⟨o + q.val, by omega⟩ : Fin 512) (0 : Fin 1)) := by
  rw [shapeCast_a1_a_apply,
    show dot_S8192x256_S256x1_S8192x1_1_0_0_1_n_n = DotDims.plain 8192 256 1 from rfl, dotGeneral_plain_apply]
  exact Finset.sum_congr rfl fun q _ => by
    rw [slice2_axis0_apply o a _ q (0 : Fin 1) (⟨o + q.val, by omega⟩ : Fin 512) rfl]

theorem hs1K_apply (s : Fin 8192) :
    Terms.hs1K (F := Ideal) h a (ix1 s)
      = ∑ q : Fin 256, h (ix2 s q) * a (ix2 (⟨q.val, by omega⟩ : Fin 512) (0 : Fin 1)) :=
  (half_apply h a 0 (by omega) slices_S512x1_S256x1_0_0 s).trans (by simp only [Nat.zero_add])

theorem hs2K_apply (t : Fin 8192) :
    Terms.hs2K (F := Ideal) h a (ix1 t)
      = ∑ q : Fin 256, h (ix2 t q) * a (ix2 (⟨256 + q.val, by omega⟩ : Fin 512) (0 : Fin 1)) :=
  half_apply h a 256 (by omega) slices_S512x1_S256x1_256_0 t

theorem sumK_apply :
    Terms.sumK (F := Ideal) h a e (ix1 r)
      = edgeSum h a (rowOf (Terms.srcK (F := Ideal) e) r) (rowOf (Terms.tgtK (F := Ideal) e) r) := by
  unfold Terms.sumK
  rw [addf_apply,
    LibGatherVec.gather_vec_apply _ rfl rfl rfl rfl rfl rfl rfl (by omega) (Terms.hs1K (F := Ideal) h a) _ r,
    LibGatherVec.gather_vec_apply _ rfl rfl rfl rfl rfl rfl rfl (by omega) (Terms.hs2K (F := Ideal) h a) _ r,
    hs1K_apply, hs2K_apply]
  simp only [broadcastInDim_col_apply]
  rfl

theorem scoreK_apply :
    Terms.scoreK (F := Ideal) h a e (ix1 r)
      = leaky1 (edgeSum h a (rowOf (Terms.srcK (F := Ideal) e) r) (rowOf (Terms.tgtK (F := Ideal) e) r)) := by
  rw [← sumK_apply]
  rfl

end KernelSide

section ReferenceSide
open Cert.ReferenceIdeal

-- a sum over 512 columns splits into the source's half against a[0:256] and the target's half against a[256:512]
theorem preScore_apply :
    RefRun.preScoreTerm (F := Ideal) h e a (ix2 r (0 : Fin 1))
      = edgeSum h a (rowOf (RefRun.srcTerm (F := Ideal) e) r) (rowOf (RefRun.tgtTerm (F := Ideal) e) r) := by
  have rows : ∀ I (q : Fin 256), RefRun.rowsTerm (F := Ideal) h I (ix2 r q) = h (ix2 (rowOf I r) q) := fun I q => by
    unfold RefRun.rowsTerm
    rw [LibGatherRows.gather_rows_apply _ rfl rfl rfl rfl rfl rfl rfl (by omega) h _ r q]
    simp only [broadcastInDim_col_apply]
    rfl
  unfold RefRun.preScoreTerm edgeSum
  rw [show dot_S262144x512_S512x1_S262144x1_1_0_0_1_n_n = DotDims.plain 262144 512 1 from rfl, dotGeneral_plain_apply,
    sum_split_halves (A := 256) (B := 256) rfl]
  congr 1 <;> refine Finset.sum_congr rfl fun q _ => ?_
  · rw [concat_cols_left _ _ _ r (⟨q.val, by omega⟩ : Fin 512) q rfl, rows]
  · rw [concat_cols_right _ _ _ r (⟨256 + q.val, by omega⟩ : Fin 512) q rfl, rows]

theorem scoreR_apply :
    RefRun.scoreTerm (F := Ideal) h e a (ix1 r)
      = leaky1 (edgeSum h a (rowOf (RefRun.srcTerm (F := Ideal) e) r) (rowOf (RefRun.tgtTerm (F := Ideal) e) r)) := by
  unfold RefRun.scoreTerm
  rw [shapeCast_a1_a_apply, ← preScore_apply]
  rfl

end ReferenceSide

open Cert.KernelIdeal.Terms Cert.ReferenceIdeal.RefRun

-- both sides rectify the same sum at the same rows: the index chains are the same compositions
theorem score_eq : scoreK (F := Ideal) h a e = scoreTerm (F := Ideal) h e a :=
  funext fun (j : (⟨1, ![262144]⟩ : Shape).Idx) => by
    rw [eq_ix1 j]
    exact (scoreK_apply h a e _).trans (scoreR_apply h a e _).symm

theorem attn_eq : attnK (F := Ideal) h a e = attnTerm (F := Ideal) h e a := by
  unfold attnK attnTerm
  rw [score_eq]
  rfl

theorem score_real (hh : ∀ j, ∃ r : ℝ, h j = (r : EReal)) (ha : ∀ j, ∃ r : ℝ, a j = (r : EReal)) :
    ∀ j, ∃ r : ℝ, scoreK (F := Ideal) h a e j = (r : EReal) := by
  intro (j : (⟨1, ![262144]⟩ : Shape).Idx)
  rw [eq_ix1 j]
  exact ⟨_, (scoreK_apply h a e (j 0)).trans (real_leaky _ (real_add (real_sum _ _ fun q _ => real_mul (hh _) (ha _))
    (real_sum _ _ fun q _ => real_mul (hh _) (ha _)))).choose_spec⟩

end Cert.EdgeScore

end
-- ==== Proof.KValue.lean ====
import proofs.«410106_j61143154426041_3_alg».proof.Defs
import proofs.«410106_j61143154426041_3_alg».proof.Proof.Gen.Pre_finite_inputs
import proofs.«410106_j61143154426041_3_alg».proof.Proof.Spec
import proofs.«410106_j61143154426041_3_alg».proof.Proof.KI_Terms
import proofs.«410106_j61143154426041_3_alg».proof.Proof.KI_Run
import proofs.«410106_j61143154426041_3_alg».proof.Proof.KI_HostValue
import proofs.«410106_j61143154426041_3_alg».proof.Proof.R0Value
import proofs.«410106_j61143154426041_3_alg».proof.Proof.R1Value
import proofs.«410106_j61143154426041_3_alg».proof.Proof.Finite
import proofs.«410106_j61143154426041_3_alg».proof.Proof.Finite3
import proofs.«410106_j61143154426041_3_alg».proof.Proof.EdgeScore
import Idealize.ShloMosaic.Lib.ValueIdx

noncomputable section

namespace Cert.KernelIdeal.KValue
open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

theorem W1_arg1 (c : Dev nD) : Run.W1 m c (Proc.devRef .tc main_arg1) = m ((c : Thread nD τ).loc main_arg1) :=
  Run.W1_of_ne m c main_arg1 (by decide)
theorem W1_arg3 (c : Dev nD) : Run.W1 m c (Proc.devRef .tc main_arg3) = m ((c : Thread nD τ).loc main_arg3) :=
  Run.W1_of_ne m c main_arg3 (by decide)
theorem W1_arg4 (c : Dev nD) : Run.W1 m c (Proc.devRef .tc main_arg4) = m ((c : Thread nD τ).loc main_arg4) :=
  Run.W1_of_ne m c main_arg4 (by decide)

theorem W1_h32 (c : Dev nD) : Run.W1 m c (Proc.devRef .tc main_v0_0)
    = Cert.Spec.hSpec (m ((c : Thread nD τ).loc main_arg0)) (m ((c : Thread nD τ).loc main_arg2)) :=
  (Run.W1_v0_0 m c).trans (R0Value.h32 (Run.Vr0 m) c)

theorem W1_hbf (c : Dev nD) : Run.W1 m c (Proc.devRef .tc main_v0_1)
    = Cert.Spec.hSpec (m ((c : Thread nD τ).loc main_arg0)) (m ((c : Thread nD τ).loc main_arg2)) :=
  (Run.W1_v0_1 m c).trans (R0Value.hbf (Run.Vr0 m) c)

theorem Vr4_attn (c : Dev nD) : Run.Vr4 m c main_v41
    = Terms.attnK (F := Ideal) (Cert.Spec.hSpec (m ((c : Thread nD τ).loc main_arg0)) (m ((c : Thread nD τ).loc main_arg2)))
        (m ((c : Thread nD τ).loc main_arg3)) (m ((c : Thread nD τ).loc main_arg1)) := by
  show HostValue.afterHost (Run.W1 m c) (main_v41 : DevRef τ sig) = _
  rw [HostValue.afterHost_attn]
  show Terms.attnK (Run.W1 m c (Proc.devRef .tc main_v0_0)) (Run.W1 m c (Proc.devRef .tc main_arg3)) (Run.W1 m c (Proc.devRef .tc main_arg1)) = _
  rw [W1_h32, W1_arg3, W1_arg1]

theorem Vr4_hbf (c : Dev nD) : Run.Vr4 m c main_v0_1
    = Cert.Spec.hSpec (m ((c : Thread nD τ).loc main_arg0)) (m ((c : Thread nD τ).loc main_arg2)) := by
  show HostValue.afterHost (Run.W1 m c) (main_v0_1 : DevRef τ sig) = _
  rw [HostValue.afterHost_hbf]
  exact W1_hbf m c

theorem Vr4_bias (c : Dev nD) : Run.Vr4 m c main_v42 = Terms.biasK (F := Ideal) (m ((c : Thread nD τ).loc main_arg4)) := by
  show HostValue.afterHost (Run.W1 m c) (main_v42 : DevRef τ sig) = _
  rw [HostValue.afterHost_bias]
  show Terms.biasK (Run.W1 m c (Proc.devRef .tc main_arg4)) = _
  rw [W1_arg4]

theorem kernel_value (hpre : Cert.Pre_KernelIdeal m) (c : Dev nD) :
    (Run.W5 (F := Ideal) m c (Proc.devRef .tc main_v43) : S8192x256.Idx → EReal)
      = Cert.Spec.aggSpec
          (Terms.attnK (F := Ideal) (Cert.Spec.hSpec (m ((c : Thread nD τ).loc main_arg0)) (m ((c : Thread nD τ).loc main_arg2)))
            (m ((c : Thread nD τ).loc main_arg3)) (m ((c : Thread nD τ).loc main_arg1)))
          (Cert.Spec.hSpec (m ((c : Thread nD τ).loc main_arg0)) (m ((c : Thread nD τ).loc main_arg2)))
          (m ((c : Thread nD τ).loc main_arg4)) := by
  obtain ⟨hx, hw, ha, hb⟩ := Cert.Finite.pre_real m hpre c
  have hh := Cert.Finite.hSpec_real _ _ hx hw
  rw [Run.W5_v43 m c, R1Value.out_eq (Run.Vr4 m) c
    (by rw [Vr4_attn]; exact Cert.Finite.attnK_real _ _ _ (Cert.EdgeScore.score_real _ _ _ hh ha))
    (by rw [Vr4_hbf]; exact hh)
    (by rw [Vr4_bias]; exact Cert.Finite.biasK_real _ hb),
    Vr4_attn, Vr4_hbf, Vr4_bias]
  congr 1
  funext j
  exact (Cert.Finite.biasK_apply _ (j 0)).trans (congrArg _ (eq_ix1 j).symm)

end Cert.KernelIdeal.KValue

end
-- ==== Proof.RefValue.lean ====
import proofs.«410106_j61143154426041_3_alg».proof.Proof.RefRun
import proofs.«410106_j61143154426041_3_alg».proof.Proof.Spec
import proofs.«410106_j61143154426041_3_alg».proof.Proof.Softmax
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value
import Idealize.ShloMosaic.Lib.StackMember

noncomputable section

namespace Cert.ReferenceIdeal.RefValue

open Cert.ReferenceIdeal Cert.ReferenceIdeal.Gen Idealize.ShloMosaic Idealize.ShloMosaic.ValueIdx Cert.Softmax Cert.Spec
open Idealize.ShloMosaic.StackMember (dotGeneral_plain_apply)
open scoped BigOperators

theorem hTerm_eq (x : (⟨S8192x512, .f32⟩ : BufTy).Contents (Elt Ideal)) (w : (⟨S512x256, .f32⟩ : BufTy).Contents (Elt Ideal)) :
    RefRun.hTerm (F := Ideal) x w = Cert.Spec.hSpec x w := by
  funext j
  obtain ⟨i, k, rfl⟩ : ∃ (i : Fin 8192) (k : Fin 256), j = ix2 i k := ⟨j 0, j 1, eq_ix2 j⟩
  exact dotGeneral_plain_apply none x w i k

-- a broadcast reads size-one axes at 0 and the others at the result's coordinate
theorem bcast_col_apply {α : Type} (v : S8192.Idx → α) (i j : Fin 8192) :
    broadcastInDim S8192x8192 ![0, 1] bcast_S8192x1_S8192x8192_0_1 (broadcastInDim S8192x1 ![0] bcast_S8192_S8192x1_0 v) (ix2 i j)
      = v (ix1 i) :=
  (broadcastInDim_apply ![0, 1] bcast_S8192x1_S8192x8192_0_1 _ (ix2 i j) (ix2 i (0 : Fin 1)) fun a => by
    match a with
    | ⟨0, _⟩ => rfl
    | ⟨1, _⟩ => rfl).trans
    (broadcastInDim_apply ![0] bcast_S8192_S8192x1_0 v (ix2 i (0 : Fin 1)) (ix1 i) fun a => by
      match a with
      | ⟨0, _⟩ => rfl)

theorem bcast_row_apply {α : Type} (b : S256.Idx → α) (i : Fin 8192) (k : Fin 256) :
    broadcastInDim S8192x256 ![0, 1] bcast_S1x256_S8192x256_0_1 (broadcastInDim S1x256 ![1] bcast_S256_S1x256_1 b) (ix2 i k)
      = b (ix1 k) :=
  (broadcastInDim_apply ![0, 1] bcast_S1x256_S8192x256_0_1 _ (ix2 i k) (ix2 (0 : Fin 1) k) fun a => by
    match a with
    | ⟨0, _⟩ => rfl
    | ⟨1, _⟩ => rfl).trans
    (broadcastInDim_apply ![1] bcast_S256_S1x256_1 b (ix2 (0 : Fin 1) k) (ix1 k) fun a => by
      match a with
      | ⟨0, _⟩ => rfl)

theorem reduces_row : S8192x8192.Reduces [1] S8192 := by decide

theorem lift_row (i : Fin 8192) (k : Fin (S8192x8192.size 1)) :
    reduces_row.lift (ix1 i) k = ix2 i (⟨k.val, k.isLt⟩ : Fin 8192) := by
  funext c; apply Fin.ext
  fin_cases c <;> rfl

theorem neg_inf_f32 : Ideal.ofBits .f32 0xFF800000#32 = (⊥ : EReal) := by simp [Ideal.ofBits, Ideal.ieee]

variable (A : (⟨S8192x8192, .f32⟩ : BufTy).Contents (Elt Ideal)) (i j : Fin 8192)

-- the maximum with −∞ changes nothing
theorem rowMaxTerm_apply : RefRun.rowMaxTerm (F := Ideal) A (ix1 i) = rmax (rowOf A i) Finset.univ := by
  unfold RefRun.rowMaxTerm
  rw [maximumf_apply, broadcastInDim_scalar_apply, constant_apply, neg_inf_f32, max_bot_left]
  refine (Host.reduce_eq_fold_single (α := Ideal .f32) (FloatOps.maximumf (F := Ideal) (φ := .f32)) A _ reducesTo_S8192x8192_S8192_d1 reduces_row h_S_ (ix1 i)).trans ?_
  rw [constant_apply, neg_inf_f32, show (A ∘ reduces_row.lift (ix1 i)) = rowOf A i from funext fun k => congrArg A (lift_row i k)]
  rfl

theorem expTerm_apply :
    RefRun.expTerm (F := Ideal) A (ix2 i j) = Ideal.exp (A (ix2 i j) - rmax (rowOf A i) Finset.univ) :=
  congrArg (fun m => Ideal.exp (A (ix2 i j) - m)) ((bcast_col_apply _ i j).trans (rowMaxTerm_apply A i))

theorem rowSum_apply :
    Host.reduceAdd (F := Ideal) (RefRun.expTerm (F := Ideal) A) (constant (F := Ideal) S_ .f32 0x00000000#32) reducesTo_S8192x8192_S8192_d1 h_S_ (ix1 i)
      = rsum (rowOf A i) Finset.univ := by
  rw [hostReduceAdd_apply, Ideal.hostReduceAdd_single reducesTo_S8192x8192_S8192_d1 reduces_row, constant_apply, Ideal.ofBits_zero_f32, zero_add]
  refine Finset.sum_congr rfl fun k _ => ?_
  rw [lift_row, expTerm_apply]
  rfl

theorem softTerm_apply :
    RefRun.softTerm (F := Ideal) A (ix2 i j)
      = Ideal.div (Ideal.exp (A (ix2 i j) - rmax (rowOf A i) Finset.univ)) (rsum (rowOf A i) Finset.univ) :=
  (congrArg (Ideal.div (RefRun.expTerm (F := Ideal) A (ix2 i j))) ((bcast_col_apply _ i j).trans (rowSum_apply A i))).trans
    (congrArg (Ideal.div · _) (expTerm_apply A i j))

-- with real logits and values the normaliser is a positive real, so dividing each weight by it divides the sum
theorem outTerm_eq (A : (⟨S8192x8192, .f32⟩ : BufTy).Contents (Elt Ideal)) (h : (⟨S8192x256, .f32⟩ : BufTy).Contents (Elt Ideal))
    (b : (⟨S256, .f32⟩ : BufTy).Contents (Elt Ideal)) (hA : ∀ j, ∃ r : ℝ, A j = (r : EReal)) (hh : ∀ j, ∃ r : ℝ, h j = (r : EReal)) :
    RefRun.outTerm (F := Ideal) A h b = Cert.Spec.aggSpec A h b := by
  funext j
  obtain ⟨i, k, rfl⟩ : ∃ (i : Fin 8192) (k : Fin 256), j = ix2 i k := ⟨j 0, j 1, eq_ix2 j⟩
  unfold RefRun.outTerm Cert.Spec.aggSpec
  rw [addf_apply, show dot_S8192x8192_S8192x256_S8192x256_1_0_0_1_n_n = DotDims.plain 8192 8192 256 from rfl,
    dotGeneral_plain_apply, bcast_row_apply]
  show (∑ q : Fin 8192, RefRun.softTerm (F := Ideal) A (ix2 i q) * h (ix2 q k)) + b (ix1 k)
    = Ideal.div (racc (rowOf A i) (colOf h k) Finset.univ) (rsum (rowOf A i) Finset.univ) + b (ix1 k)
  rw [racc_div_rsum (rowOf A i) (colOf h k) (fun j => hA (ix2 i j)) (fun j => hh (ix2 j k)) Finset.univ ⟨(0 : Fin 8192), Finset.mem_univ _⟩]
  refine congrArg (· + b (ix1 k)) (Finset.sum_congr rfl fun q _ => ?_)
  rw [softTerm_apply]
  rfl

end Cert.ReferenceIdeal.RefValue

end
-- ==== Proof.RefSide.lean ====
import proofs.«410106_j61143154426041_3_alg».proof.Proof.RefValue
import proofs.«410106_j61143154426041_3_alg».proof.Proof.EdgeScore
import proofs.«410106_j61143154426041_3_alg».proof.Proof.Finite3

noncomputable section

namespace Cert.ReferenceIdeal.RefSide

open Cert.ReferenceIdeal Idealize.ShloMosaic

theorem ref_value (x : (⟨S8192x512, .f32⟩ : BufTy).Contents (Elt Ideal)) (e : (⟨S2x262144, .i32⟩ : BufTy).Contents (Elt Ideal))
    (w : (⟨S512x256, .f32⟩ : BufTy).Contents (Elt Ideal)) (a : (⟨S512x1, .f32⟩ : BufTy).Contents (Elt Ideal))
    (b : (⟨S256, .f32⟩ : BufTy).Contents (Elt Ideal))
    (hx : ∀ j, ∃ r : ℝ, x j = (r : EReal)) (hw : ∀ j, ∃ r : ℝ, w j = (r : EReal)) (ha : ∀ j, ∃ r : ℝ, a j = (r : EReal)) :
    RefRun.resultTerm (F := Ideal) x e w a b
      = Cert.Spec.aggSpec (Cert.KernelIdeal.Terms.attnK (F := Ideal) (Cert.Spec.hSpec x w) a e) (Cert.Spec.hSpec x w) b := by
  unfold RefRun.resultTerm
  rw [RefValue.hTerm_eq, ← Cert.EdgeScore.attn_eq]
  exact RefValue.outTerm_eq _ _ _
    (Cert.Finite.attnK_real _ _ _ (Cert.EdgeScore.score_real _ _ _ (Cert.Finite.hSpec_real x w hx hw) ha))
    (Cert.Finite.hSpec_real x w hx hw)

end Cert.ReferenceIdeal.RefSide

end
-- ==== Proof.lean ====
import proofs.«410106_j61143154426041_3_alg».proof.Defs
import proofs.«410106_j61143154426041_3_alg».proof.Proof.KB_Run
import proofs.«410106_j61143154426041_3_alg».proof.Proof.KI_Run
import proofs.«410106_j61143154426041_3_alg».proof.Proof.KValue
import proofs.«410106_j61143154426041_3_alg».proof.Proof.RefRun
import proofs.«410106_j61143154426041_3_alg».proof.Proof.RefSide
import proofs.«410106_j61143154426041_3_alg».proof.Proof.Finite

noncomputable section

namespace Cert.Proof

open Idealize.ShloMosaic Idealize.ShloMosaic.TcCoe Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

/-- The reference is a host program: its run, with the result dropped. -/
theorem frame_r : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Streamed over column blocks or taken over the whole row, the softmax-weighted sum of the rows of `x · W` is one function of the arguments. -/
theorem algebraic : Cert.algebraic_KernelIdeal_ReferenceIdeal := by
  intro m ρ m' ρ' hpre hagree
  refine ⟨fun c => Cert.KernelIdeal.Run.W5 (F := Ideal) m c (Proc.devRef .tc Cert.KernelIdeal.main_v43), ?_, ?_⟩
  · exact Cert.KernelIdeal.Run.run_post (F := Ideal) m ρ fun s h c =>
      ⟨h c _ (Cert.KernelIdeal.Run.mem_uc Cert.KernelIdeal.main_v43 (by decide)),
       (h c _ (Cert.KernelIdeal.Run.mem_uc Cert.KernelIdeal.main_arg0 (by decide))).trans (Cert.KernelIdeal.Run.W5_main_arg0 m c),
       (h c _ (Cert.KernelIdeal.Run.mem_uc Cert.KernelIdeal.main_arg1 (by decide))).trans (Cert.KernelIdeal.Run.W5_main_arg1 m c),
       (h c _ (Cert.KernelIdeal.Run.mem_uc Cert.KernelIdeal.main_arg2 (by decide))).trans (Cert.KernelIdeal.Run.W5_main_arg2 m c),
       (h c _ (Cert.KernelIdeal.Run.mem_uc Cert.KernelIdeal.main_arg3 (by decide))).trans (Cert.KernelIdeal.Run.W5_main_arg3 m c),
       (h c _ (Cert.KernelIdeal.Run.mem_uc Cert.KernelIdeal.main_arg4 (by decide))).trans (Cert.KernelIdeal.Run.W5_main_arg4 m c)⟩
  · refine (θ_run Cert.ReferenceIdeal.defs _ _).mono (fun _ h c => ⟨(h c).1.trans ?_, (h c).2⟩)
      (Cert.ReferenceIdeal.RefRun.run (F := Ideal) m' ρ')
    have hr := Cert.Finite.pre_real m hpre c
    rw [(hagree c).1, (hagree c).2.1, (hagree c).2.2.1, (hagree c).2.2.2.1, (hagree c).2.2.2.2]
    exact (Cert.ReferenceIdeal.RefSide.ref_value _ _ _ _ _ hr.1 hr.2.1 hr.2.2.1).trans
      (Cert.KernelIdeal.KValue.kernel_value m hpre c).symm

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
